-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x64 : Shape := ⟨2, ![100000, 64]⟩
abbrev S2x1000000 : Shape := ⟨2, ![2, 1000000]⟩
abbrev S128x32 : Shape := ⟨2, ![128, 32]⟩
abbrev S32 : Shape := ⟨1, ![32]⟩
abbrev S64x32 : Shape := ⟨2, ![64, 32]⟩
abbrev S32x32 : Shape := ⟨2, ![32, 32]⟩
abbrev S32x1 : Shape := ⟨2, ![32, 1]⟩
abbrev S1 : Shape := ⟨1, ![1]⟩
abbrev S_ : Shape := ⟨0, ![]⟩
abbrev S1x1000000 : Shape := ⟨2, ![1, 1000000]⟩
abbrev S1000000 : Shape := ⟨1, ![1000000]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part8 {F : FTy → Type} [FloatOps F] (main_v130 : IVec S_ 1) (main_v139 : IVec S1000000 1) : IVec S_ 1 :=
  let main_c_50 : IVec S_ 1 := constantI S_ 1 1#1
  let main_v140 : IVec S_ 1 := (fun x v => Host.reduce IntOp.andi x v reducesTo_S1000000_S_d0 h_S_) main_v139 main_c_50
  let main_v141 : IVec S_ 1 := andi main_v130 main_v140
  main_v141

def fn_part7 {F : FTy → Type} [FloatOps F] (main_arg3 : IVec S2x1000000 32) (main_arg4 : IVec S2x1000000 32) (main_v119 : IVec S_ 1) (main_v120 : IVec S1x1000000 32) : IVec S_ 1 :=
  let main_v121 : IVec S1000000 32 := shapeCast S1000000 main_v120 shapeCasts_S1x1000000_S1000000
  let main_c_45 : IVec S_ 32 := constantI S_ 32 4294867296#32
  let main_v122 : IVec S1000000 32 := broadcastInDim S1000000 ![] bcast_S_S1000000 main_c_45
  let main_v123 : IVec S1000000 1 := cmpi .sge main_v121 main_v122
  let main_v124 : IVec S1x1000000 32 := (extractStridedSlice S1x1000000 ![0, 0] · slices_S2x1000000_S1x1000000_0_0) main_arg3
  let main_v125 : IVec S1000000 32 := shapeCast S1000000 main_v124 shapeCasts_S1x1000000_S1000000
  let main_c_46 : IVec S_ 32 := constantI S_ 32 100000#32
  let main_v126 : IVec S1000000 32 := broadcastInDim S1000000 ![] bcast_S_S1000000 main_c_46
  let main_v127 : IVec S1000000 1 := cmpi .slt main_v125 main_v126
  let main_v128 : IVec S1000000 1 := andi main_v123 main_v127
  let main_c_47 : IVec S_ 1 := constantI S_ 1 1#1
  let main_v129 : IVec S_ 1 := (fun x v => Host.reduce IntOp.andi x v reducesTo_S1000000_S_d0 h_S_) main_v128 main_c_47
  let main_v130 : IVec S_ 1 := andi main_v119 main_v129
  let main_v131 : IVec S1x1000000 32 := (extractStridedSlice S1x1000000 ![0, 0] · slices_S2x1000000_S1x1000000_0_0) main_arg4
  let main_v132 : IVec S1000000 32 := shapeCast S1000000 main_v131 shapeCasts_S1x1000000_S1000000
  let main_c_48 : IVec S_ 32 := constantI S_ 32 4294767296#32
  let main_v133 : IVec S1000000 32 := broadcastInDim S1000000 ![] bcast_S_S1000000 main_c_48
  let main_v134 : IVec S1000000 1 := cmpi .sge main_v132 main_v133
  let main_v135 : IVec S1x1000000 32 := (extractStridedSlice S1x1000000 ![0, 0] · slices_S2x1000000_S1x1000000_0_0) main_arg4
  let main_v136 : IVec S1000000 32 := shapeCast S1000000 main_v135 shapeCasts_S1x1000000_S1000000
  let main_c_49 : IVec S_ 32 := constantI S_ 32 200000#32
  let main_v137 : IVec S1000000 32 := broadcastInDim S1000000 ![] bcast_S_S1000000 main_c_49
  let main_v138 : IVec S1000000 1 := cmpi .slt main_v136 main_v137
  let main_v139 : IVec S1000000 1 := andi main_v134 main_v138
  fn_part8 (F := F) main_v130 main_v139

def fn_part6 {F : FTy → Type} [FloatOps F] (main_arg2 : IVec S2x1000000 32) (main_arg3 : IVec S2x1000000 32) (main_arg4 : IVec S2x1000000 32) (main_arg24 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg24
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : IVec S1x1000000 32 := (extractStridedSlice S1x1000000 ![0, 0] · slices_S2x1000000_S1x1000000_0_0) main_arg2
  let main_v110 : IVec S1000000 32 := shapeCast S1000000 main_v109 shapeCasts_S1x1000000_S1000000
  let main_c_42 : IVec S_ 32 := constantI S_ 32 4294767296#32
  let main_v111 : IVec S1000000 32 := broadcastInDim S1000000 ![] bcast_S_S1000000 main_c_42
  let main_v112 : IVec S1000000 1 := cmpi .sge main_v110 main_v111
  let main_v113 : IVec S1x1000000 32 := (extractStridedSlice S1x1000000 ![0, 0] · slices_S2x1000000_S1x1000000_0_0) main_arg2
  let main_v114 : IVec S1000000 32 := shapeCast S1000000 main_v113 shapeCasts_S1x1000000_S1000000
  let main_c_43 : IVec S_ 32 := constantI S_ 32 200000#32
  let main_v115 : IVec S1000000 32 := broadcastInDim S1000000 ![] bcast_S_S1000000 main_c_43
  let main_v116 : IVec S1000000 1 := cmpi .slt main_v114 main_v115
  let main_v117 : IVec S1000000 1 := andi main_v112 main_v116
  let main_c_44 : IVec S_ 1 := constantI S_ 1 1#1
  let main_v118 : IVec S_ 1 := (fun x v => Host.reduce IntOp.andi x v reducesTo_S1000000_S_d0 h_S_) main_v117 main_c_44
  let main_v119 : IVec S_ 1 := andi main_v108 main_v118
  let main_v120 : IVec S1x1000000 32 := (extractStridedSlice S1x1000000 ![0, 0] · slices_S2x1000000_S1x1000000_0_0) main_arg3
  fn_part7 (F := F) main_arg3 main_arg4 main_v119 main_v120

def fn_part5 {F : FTy → Type} [FloatOps F] (main_arg2 : IVec S2x1000000 32) (main_arg3 : IVec S2x1000000 32) (main_arg4 : IVec S2x1000000 32) (main_arg21 : FVec F S32 .f32) (main_arg22 : FVec F S32x32 .f32) (main_arg23 : FVec F S32x1 .f32) (main_arg24 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg22
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32x1 .f32 := Host.absf main_arg23
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg2 main_arg3 main_arg4 main_arg24 main_v98 main_v101 main_c_39

def fn_part4 {F : FTy → Type} [FloatOps F] (main_arg2 : IVec S2x1000000 32) (main_arg3 : IVec S2x1000000 32) (main_arg4 : IVec S2x1000000 32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v63 : IVec S_ 1) (main_v67 : IVec S_ 1) : IVec S_ 1 :=
  let main_v68 : IVec S_ 1 := andi main_v63 main_v67
  let main_v69 : FVec F S32x32 .f32 := Host.absf main_arg17
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg18
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg19
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32x32 .f32 := Host.absf main_arg20
  let main_cst_32 : FVec F S_ .f32 := constant S_ .f32 0x7F800000#32
  fn_part5 (F := F) main_arg2 main_arg3 main_arg4 main_arg21 main_arg22 main_arg23 main_arg24 main_v83 main_v84 main_cst_32

def fn_part3 {F : FTy → Type} [FloatOps F] (main_arg2 : IVec S2x1000000 32) (main_arg3 : IVec S2x1000000 32) (main_arg4 : IVec S2x1000000 32) (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32x32 .f32 := Host.absf main_arg14
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg15
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg16
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg2 main_arg3 main_arg4 main_arg17 main_arg18 main_arg19 main_arg20 main_arg21 main_arg22 main_arg23 main_arg24 main_v63 main_v67

def fn_part2 {F : FTy → Type} [FloatOps F] (main_arg2 : IVec S2x1000000 32) (main_arg3 : IVec S2x1000000 32) (main_arg4 : IVec S2x1000000 32) (main_arg10 : FVec F S128x32 .f32) (main_arg11 : FVec F S128x32 .f32) (main_arg12 : FVec F S32 .f32) (main_arg13 : FVec F S64x32 .f32) (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v33 : IVec S_ 1) : IVec S_ 1 :=
  let main_v34 : FVec F S128x32 .f32 := Host.absf main_arg10
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S128x32 .f32 := Host.absf main_arg11
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x32 .f32 := Host.absf main_arg13
  let main_cst_18 : FVec F S_ .f32 := constant S_ .f32 0x7F800000#32
  let main_v50 : FVec F S64x32 .f32 := broadcastInDim S64x32 ![] bcast_S_S64x32 main_cst_18
  fn_part3 (F := F) main_arg2 main_arg3 main_arg4 main_arg14 main_arg15 main_arg16 main_arg17 main_arg18 main_arg19 main_arg20 main_arg21 main_arg22 main_arg23 main_arg24 main_v48 main_v49 main_v50

def fn_part1 {F : FTy → Type} [FloatOps F] (main_arg2 : IVec S2x1000000 32) (main_arg3 : IVec S2x1000000 32) (main_arg4 : IVec S2x1000000 32) (main_arg7 : FVec F S128x32 .f32) (main_arg8 : FVec F S64x32 .f32) (main_arg9 : FVec F S32 .f32) (main_arg10 : FVec F S128x32 .f32) (main_arg11 : FVec F S128x32 .f32) (main_arg12 : FVec F S32 .f32) (main_arg13 : FVec F S64x32 .f32) (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg7
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S64x32 .f32 := Host.absf main_arg8
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg2 main_arg3 main_arg4 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S200000x128 .f32) (main_arg1 : FVec F S100000x64 .f32) (main_arg2 : IVec S2x1000000 32) (main_arg3 : IVec S2x1000000 32) (main_arg4 : IVec S2x1000000 32) (main_arg5 : FVec F S128x32 .f32) (main_arg6 : FVec F S32 .f32) (main_arg7 : FVec F S128x32 .f32) (main_arg8 : FVec F S64x32 .f32) (main_arg9 : FVec F S32 .f32) (main_arg10 : FVec F S128x32 .f32) (main_arg11 : FVec F S128x32 .f32) (main_arg12 : FVec F S32 .f32) (main_arg13 : FVec F S64x32 .f32) (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x32 .f32 := Host.absf main_arg5
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg3 main_arg4 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S200000x128 : Shape := ⟨2, ![200000, 128]⟩
abbrev S100000x64 : Shape := ⟨2, ![100000, 64]⟩
abbrev S2x1000000 : Shape := ⟨2, ![2, 1000000]⟩
abbrev S128x32 : Shape := ⟨2, ![128, 32]⟩
abbrev S32 : Shape := ⟨1, ![32]⟩
abbrev S64x32 : Shape := ⟨2, ![64, 32]⟩
abbrev S32x32 : Shape := ⟨2, ![32, 32]⟩
abbrev S32x1 : Shape := ⟨2, ![32, 1]⟩
abbrev S1 : Shape := ⟨1, ![1]⟩
abbrev S128x128 : Shape := ⟨2, ![128, 128]⟩
abbrev S5000x128 : Shape := ⟨2, ![5000, 128]⟩
abbrev S200000x32 : Shape := ⟨2, ![200000, 32]⟩
abbrev S64x64 : Shape := ⟨2, ![64, 64]⟩
abbrev S5000x64 : Shape := ⟨2, ![5000, 64]⟩
abbrev S100000x32 : Shape := ⟨2, ![100000, 32]⟩
abbrev S1x1000000 : Shape := ⟨2, ![1, 1000000]⟩
abbrev S1000000 : Shape := ⟨1, ![1000000]⟩
abbrev S_ : Shape := ⟨0, ![]⟩
abbrev S200000 : Shape := ⟨1, ![200000]⟩
abbrev S1000000x1 : Shape := ⟨2, ![1000000, 1]⟩
abbrev S200000x1 : Shape := ⟨2, ![200000, 1]⟩
abbrev S100000 : Shape := ⟨1, ![100000]⟩
abbrev S100000x1 : Shape := ⟨2, ![100000, 1]⟩
abbrev S200000x2 : Shape := ⟨2, ![200000, 2]⟩
abbrev S1x1 : Shape := ⟨2, ![1, 1]⟩
abbrev S1000000x32 : Shape := ⟨2, ![1000000, 32]⟩
abbrev S200000x64 : Shape := ⟨2, ![200000, 64]⟩
abbrev S32x96 : Shape := ⟨2, ![32, 96]⟩
abbrev S1x32 : Shape := ⟨2, ![1, 32]⟩
abbrev S200000x96 : Shape := ⟨2, ![200000, 96]⟩
abbrev S5000x2 : Shape := ⟨2, ![5000, 2]⟩
abbrev S5000x96 : Shape := ⟨2, ![5000, 96]⟩
abbrev S5000x32 : Shape := ⟨2, ![5000, 32]⟩
abbrev S5000x1 : Shape := ⟨2, ![5000, 1]⟩

abbrev nBuf : Space → Nat
  | .hbm => 249
  | .vmem => 43
  | .smem => 0
  | _ => 0

abbrev hbmTy0_0 (i : Nat) : BufTy := match i % 128 with
  | 0 => ⟨S200000x128, .f32⟩
  | 1 => ⟨S100000x64, .f32⟩
  | 2 => ⟨S2x1000000, .i32⟩
  | 3 => ⟨S2x1000000, .i32⟩
  | 4 => ⟨S2x1000000, .i32⟩
  | 5 => ⟨S128x32, .f32⟩
  | 6 => ⟨S32, .f32⟩
  | 7 => ⟨S128x32, .f32⟩
  | 8 => ⟨S64x32, .f32⟩
  | 9 => ⟨S32, .f32⟩
  | 10 => ⟨S128x32, .f32⟩
  | 11 => ⟨S128x32, .f32⟩
  | 12 => ⟨S32, .f32⟩
  | 13 => ⟨S64x32, .f32⟩
  | 14 => ⟨S32x32, .f32⟩
  | 15 => ⟨S32, .f32⟩
  | 16 => ⟨S32x32, .f32⟩
  | 17 => ⟨S32x32, .f32⟩
  | 18 => ⟨S32, .f32⟩
  | 19 => ⟨S32x32, .f32⟩
  | 20 => ⟨S32x32, .f32⟩
  | 21 => ⟨S32, .f32⟩
  | 22 => ⟨S32x32, .f32⟩
  | 23 => ⟨S32x1, .f32⟩
  | 24 => ⟨S1, .f32⟩
  | 25 => ⟨S128x128, .f32⟩
  | 26 => ⟨S200000x128, .f32⟩
  | 27 => ⟨S200000x32, .f32⟩
  | 28 => ⟨S200000x32, .f32⟩
  | 29 => ⟨S64x64, .f32⟩
  | 30 => ⟨S100000x64, .f32⟩
  | 31 => ⟨S100000x32, .f32⟩
  | 32 => ⟨S1x1000000, .i32⟩
  | 33 => ⟨S1000000, .i32⟩
  | 34 => ⟨S_, .i32⟩
  | 35 => ⟨S1000000, .i32⟩
  | 36 => ⟨S_, .i32⟩
  | 37 => ⟨S200000, .i32⟩
  | 38 => ⟨S1000000x1, .i32⟩
  | 39 => ⟨S200000, .i32⟩
  | 40 => ⟨S200000, .f32⟩
  | 41 => ⟨S200000x1, .f32⟩
  | 42 => ⟨S1x1000000, .i32⟩
  | 43 => ⟨S1000000, .i32⟩
  | 44 => ⟨S_, .i32⟩
  | 45 => ⟨S1000000, .i32⟩
  | 46 => ⟨S_, .i32⟩
  | 47 => ⟨S200000, .i32⟩
  | 48 => ⟨S1000000x1, .i32⟩
  | 49 => ⟨S200000, .i32⟩
  | 50 => ⟨S200000, .f32⟩
  | 51 => ⟨S200000x1, .f32⟩
  | 52 => ⟨S1x1000000, .i32⟩
  | 53 => ⟨S1000000, .i32⟩
  | 54 => ⟨S_, .i32⟩
  | 55 => ⟨S1000000, .i32⟩
  | 56 => ⟨S_, .i32⟩
  | 57 => ⟨S100000, .i32⟩
  | 58 => ⟨S1000000x1, .i32⟩
  | 59 => ⟨S100000, .i32⟩
  | 60 => ⟨S100000, .f32⟩
  | 61 => ⟨S100000x1, .f32⟩
  | 62 => ⟨S_, .f32⟩
  | 63 => ⟨S200000x1, .f32⟩
  | 64 => ⟨S200000x1, .f32⟩
  | 65 => ⟨S_, .f32⟩
  | 66 => ⟨S200000x1, .f32⟩
  | 67 => ⟨S200000x1, .f32⟩
  | 68 => ⟨S_, .f32⟩
  | 69 => ⟨S200000x1, .f32⟩
  | 70 => ⟨S200000x1, .f32⟩
  | 71 => ⟨S_, .f32⟩
  | 72 => ⟨S200000x1, .f32⟩
  | 73 => ⟨S200000x1, .f32⟩
  | 74 => ⟨S_, .f32⟩
  | 75 => ⟨S100000x1, .f32⟩
  | 76 => ⟨S100000x1, .f32⟩
  | 77 => ⟨S_, .f32⟩
  | 78 => ⟨S100000x1, .f32⟩
  | 79 => ⟨S100000x1, .f32⟩
  | 80 => ⟨S200000x2, .f32⟩
  | 81 => ⟨S1x1000000, .i32⟩
  | 82 => ⟨S1000000, .i32⟩
  | 83 => ⟨S1x1000000, .i32⟩
  | 84 => ⟨S1000000, .i32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1, .i32⟩
  | 94 => ⟨S_, .i32⟩
  | 95 => ⟨S1000000x1, .i32⟩
  | 96 => ⟨S1000000x1, .i1⟩
  | 97 => ⟨S1x1, .i32⟩
  | 98 => ⟨S1000000x1, .i32⟩
  | 99 => ⟨S1000000x1, .i1⟩
  | 100 => ⟨S1000000x1, .i1⟩
  | 101 => ⟨S_, .i1⟩
  | 102 => ⟨S1000000, .i1⟩
  | 103 => ⟨S1000000x32, .f32⟩
  | 104 => ⟨S1000000x32, .i1⟩
  | 105 => ⟨S_, .f32⟩
  | 106 => ⟨S1000000x32, .f32⟩
  | 107 => ⟨S1000000x32, .f32⟩
  | 108 => ⟨S_, .f32⟩
  | 109 => ⟨S200000x32, .f32⟩
  | 110 => ⟨S1000000x1, .i32⟩
  | 111 => ⟨S200000x32, .f32⟩
  | 112 => ⟨S1x1000000, .i32⟩
  | 113 => ⟨S1000000, .i32⟩
  | 114 => ⟨S1x1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1, .i32⟩
  | 125 => ⟨S_, .i32⟩
  | 126 => ⟨S1000000x1, .i32⟩
  | 127 => ⟨S1000000x1, .i1⟩
  | _ => ⟨S200000x128, .f32⟩

abbrev hbmTy0_1 (i : Nat) : BufTy := match i % 128 with
  | 0 => ⟨S1x1, .i32⟩
  | 1 => ⟨S1000000x1, .i32⟩
  | 2 => ⟨S1000000x1, .i1⟩
  | 3 => ⟨S1000000x1, .i1⟩
  | 4 => ⟨S_, .i1⟩
  | 5 => ⟨S1000000, .i1⟩
  | 6 => ⟨S1000000x32, .f32⟩
  | 7 => ⟨S1000000x32, .i1⟩
  | 8 => ⟨S_, .f32⟩
  | 9 => ⟨S1000000x32, .f32⟩
  | 10 => ⟨S1000000x32, .f32⟩
  | 11 => ⟨S_, .f32⟩
  | 12 => ⟨S200000x32, .f32⟩
  | 13 => ⟨S1000000x1, .i32⟩
  | 14 => ⟨S200000x32, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1, .i32⟩
  | 28 => ⟨S_, .i32⟩
  | 29 => ⟨S1000000x1, .i32⟩
  | 30 => ⟨S1000000x1, .i1⟩
  | 31 => ⟨S1x1, .i32⟩
  | 32 => ⟨S1000000x1, .i32⟩
  | 33 => ⟨S1000000x1, .i1⟩
  | 34 => ⟨S1000000x1, .i1⟩
  | 35 => ⟨S_, .i1⟩
  | 36 => ⟨S1000000, .i1⟩
  | 37 => ⟨S1000000x32, .f32⟩
  | 38 => ⟨S1000000x32, .i1⟩
  | 39 => ⟨S_, .f32⟩
  | 40 => ⟨S1000000x32, .f32⟩
  | 41 => ⟨S1000000x32, .f32⟩
  | 42 => ⟨S_, .f32⟩
  | 43 => ⟨S100000x32, .f32⟩
  | 44 => ⟨S1000000x1, .i32⟩
  | 45 => ⟨S100000x32, .f32⟩
  | 46 => ⟨S200000x64, .f32⟩
  | 47 => ⟨S32x96, .f32⟩
  | 48 => ⟨S1x32, .f32⟩
  | 49 => ⟨S1x32, .f32⟩
  | 50 => ⟨S200000x96, .f32⟩
  | 51 => ⟨S1x32, .f32⟩
  | 52 => ⟨S100000x32, .f32⟩
  | 53 => ⟨S200000x32, .f32⟩
  | 54 => ⟨S1x1000000, .i32⟩
  | 55 => ⟨S1000000, .i32⟩
  | 56 => ⟨S1x1000000, .i32⟩
  | 57 => ⟨S1000000, .i32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1, .i32⟩
  | 67 => ⟨S_, .i32⟩
  | 68 => ⟨S1000000x1, .i32⟩
  | 69 => ⟨S1000000x1, .i1⟩
  | 70 => ⟨S1x1, .i32⟩
  | 71 => ⟨S1000000x1, .i32⟩
  | 72 => ⟨S1000000x1, .i1⟩
  | 73 => ⟨S1000000x1, .i1⟩
  | 74 => ⟨S_, .i1⟩
  | 75 => ⟨S1000000, .i1⟩
  | 76 => ⟨S1000000x32, .f32⟩
  | 77 => ⟨S1000000x32, .i1⟩
  | 78 => ⟨S_, .f32⟩
  | 79 => ⟨S1000000x32, .f32⟩
  | 80 => ⟨S1000000x32, .f32⟩
  | 81 => ⟨S_, .f32⟩
  | 82 => ⟨S200000x32, .f32⟩
  | 83 => ⟨S1000000x1, .i32⟩
  | 84 => ⟨S200000x32, .f32⟩
  | 85 => ⟨S1x1000000, .i32⟩
  | 86 => ⟨S1000000, .i32⟩
  | 87 => ⟨S1x1000000, .i32⟩
  | 88 => ⟨S1000000, .i32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1, .i32⟩
  | 98 => ⟨S_, .i32⟩
  | 99 => ⟨S1000000x1, .i32⟩
  | 100 => ⟨S1000000x1, .i1⟩
  | 101 => ⟨S1x1, .i32⟩
  | 102 => ⟨S1000000x1, .i32⟩
  | 103 => ⟨S1000000x1, .i1⟩
  | 104 => ⟨S1000000x1, .i1⟩
  | 105 => ⟨S_, .i1⟩
  | 106 => ⟨S1000000, .i1⟩
  | 107 => ⟨S1000000x32, .f32⟩
  | 108 => ⟨S1000000x32, .i1⟩
  | 109 => ⟨S_, .f32⟩
  | 110 => ⟨S1000000x32, .f32⟩
  | 111 => ⟨S1000000x32, .f32⟩
  | 112 => ⟨S_, .f32⟩
  | 113 => ⟨S200000x32, .f32⟩
  | 114 => ⟨S1000000x1, .i32⟩
  | 115 => ⟨S200000x32, .f32⟩
  | 116 => ⟨S200000x64, .f32⟩
  | 117 => ⟨S1x32, .f32⟩
  | 118 => ⟨S1x32, .f32⟩
  | 119 => ⟨S1x1, .f32⟩
  | 120 => ⟨S200000x1, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x2, .f32⟩
  | .local _ .vmem, ⟨13, _⟩ => ⟨S5000x2, .f32⟩
  | .local _ .vmem, ⟨14, _⟩ => ⟨S5000x128, .f32⟩
  | .local _ .vmem, ⟨15, _⟩ => ⟨S5000x128, .f32⟩
  | .local _ .vmem, ⟨16, _⟩ => ⟨S1x32, .f32⟩
  | .local _ .vmem, ⟨17, _⟩ => ⟨S1x32, .f32⟩
  | .local _ .vmem, ⟨18, _⟩ => ⟨S32x96, .f32⟩
  | .local _ .vmem, ⟨19, _⟩ => ⟨S5000x96, .f32⟩
  | .local _ .vmem, ⟨20, _⟩ => ⟨S5000x96, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S5000x64, .f32⟩
  | .local _ .vmem, ⟨26, _⟩ => ⟨S5000x64, .f32⟩
  | .local _ .vmem, ⟨27, _⟩ => ⟨S1x32, .f32⟩
  | .local _ .vmem, ⟨28, _⟩ => ⟨S32x32, .f32⟩
  | .local _ .vmem, ⟨29, _⟩ => ⟨S5000x32, .f32⟩
  | .local _ .vmem, ⟨30, _⟩ => ⟨S5000x32, .f32⟩
  | .local _ .vmem, ⟨31, _⟩ => ⟨S5000x64, .f32⟩
  | .local _ .vmem, ⟨32, _⟩ => ⟨S5000x64, .f32⟩
  | .local _ .vmem, ⟨33, _⟩ => ⟨S5000x2, .f32⟩
  | .local _ .vmem, ⟨34, _⟩ => ⟨S5000x2, .f32⟩
  | .local _ .vmem, ⟨35, _⟩ => ⟨S5000x96, .f32⟩
  | .local _ .vmem, ⟨36, _⟩ => ⟨S5000x96, .f32⟩
  | .local _ .vmem, ⟨37, _⟩ => ⟨S1x32, .f32⟩
  | .local _ .vmem, ⟨38, _⟩ => ⟨S1x32, .f32⟩
  | .local _ .vmem, ⟨39, _⟩ => ⟨S32x1, .f32⟩
  | .local _ .vmem, ⟨40, _⟩ => ⟨S1x1, .f32⟩
  | .local _ .vmem, ⟨41, _⟩ => ⟨S5000x1, .f32⟩
  | .local _ .vmem, ⟨42, _⟩ => ⟨S5000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_1 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_3 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call0_c : Ref sig .tc := ⟨.hbm, 85, rfl⟩
abbrev main_call0_v0 : Ref sig .tc := ⟨.hbm, 86, rfl⟩
abbrev main_call0_v1 : Ref sig .tc := ⟨.hbm, 87, rfl⟩
abbrev main_call0_c_0 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_c_1 : Ref sig .tc := ⟨.hbm, 93, rfl⟩
abbrev main_call0_c_2 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_c_3 : Ref sig .tc := ⟨.hbm, 101, rfl⟩
abbrev main_call0_v12 : Ref sig .tc := ⟨.hbm, 102, rfl⟩
abbrev main_call0_v13 : Ref sig .tc := ⟨.hbm, 103, rfl⟩
abbrev main_call0_v14 : Ref sig .tc := ⟨.hbm, 104, rfl⟩
abbrev main_call0_cst : Ref sig .tc := ⟨.hbm, 105, rfl⟩
abbrev main_call0_v15 : Ref sig .tc := ⟨.hbm, 106, rfl⟩
abbrev main_v48 : Ref sig .tc := ⟨.hbm, 107, rfl⟩
abbrev main_cst_10 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_call1_c : Ref sig .tc := ⟨.hbm, 116, rfl⟩
abbrev main_call1_v0 : Ref sig .tc := ⟨.hbm, 117, rfl⟩
abbrev main_call1_v1 : Ref sig .tc := ⟨.hbm, 118, rfl⟩
abbrev main_call1_c_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_c_1 : Ref sig .tc := ⟨.hbm, 124, rfl⟩
abbrev main_call1_c_2 : Ref sig .tc := ⟨.hbm, 125, rfl⟩
abbrev main_call1_v6 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_c_3 : Ref sig .tc := ⟨.hbm, 132, rfl⟩
abbrev main_call1_v12 : Ref sig .tc := ⟨.hbm, 133, rfl⟩
abbrev main_call1_v13 : Ref sig .tc := ⟨.hbm, 134, rfl⟩
abbrev main_call1_v14 : Ref sig .tc := ⟨.hbm, 135, rfl⟩
abbrev main_call1_cst : Ref sig .tc := ⟨.hbm, 136, rfl⟩
abbrev main_call1_v15 : Ref sig .tc := ⟨.hbm, 137, rfl⟩
abbrev main_v56 : Ref sig .tc := ⟨.hbm, 138, rfl⟩
abbrev main_cst_11 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_call2_c : Ref sig .tc := ⟨.hbm, 147, rfl⟩
abbrev main_call2_v0 : Ref sig .tc := ⟨.hbm, 148, rfl⟩
abbrev main_call2_v1 : Ref sig .tc := ⟨.hbm, 149, rfl⟩
abbrev main_call2_c_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_c_1 : Ref sig .tc := ⟨.hbm, 155, rfl⟩
abbrev main_call2_c_2 : Ref sig .tc := ⟨.hbm, 156, rfl⟩
abbrev main_call2_v6 : Ref sig .tc := ⟨.hbm, 157, rfl⟩
abbrev main_call2_v7 : Ref sig .tc := ⟨.hbm, 158, rfl⟩
abbrev main_call2_v8 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_c_3 : Ref sig .tc := ⟨.hbm, 163, rfl⟩
abbrev main_call2_v12 : Ref sig .tc := ⟨.hbm, 164, rfl⟩
abbrev main_call2_v13 : Ref sig .tc := ⟨.hbm, 165, rfl⟩
abbrev main_call2_v14 : Ref sig .tc := ⟨.hbm, 166, rfl⟩
abbrev main_call2_cst : Ref sig .tc := ⟨.hbm, 167, rfl⟩
abbrev main_call2_v15 : Ref sig .tc := ⟨.hbm, 168, rfl⟩
abbrev main_v64 : Ref sig .tc := ⟨.hbm, 169, rfl⟩
abbrev main_cst_12 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_call3_c : Ref sig .tc := ⟨.hbm, 186, rfl⟩
abbrev main_call3_v0 : Ref sig .tc := ⟨.hbm, 187, rfl⟩
abbrev main_call3_v1 : Ref sig .tc := ⟨.hbm, 188, rfl⟩
abbrev main_call3_c_0 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_call3_v5 : Ref sig .tc := ⟨.hbm, 193, rfl⟩
abbrev main_call3_c_1 : Ref sig .tc := ⟨.hbm, 194, rfl⟩
abbrev main_call3_c_2 : Ref sig .tc := ⟨.hbm, 195, rfl⟩
abbrev main_call3_v6 : Ref sig .tc := ⟨.hbm, 196, rfl⟩
abbrev main_call3_v7 : Ref sig .tc := ⟨.hbm, 197, rfl⟩
abbrev main_call3_v8 : Ref sig .tc := ⟨.hbm, 198, rfl⟩
abbrev main_call3_v9 : Ref sig .tc := ⟨.hbm, 199, rfl⟩
abbrev main_call3_v10 : Ref sig .tc := ⟨.hbm, 200, rfl⟩
abbrev main_call3_v11 : Ref sig .tc := ⟨.hbm, 201, rfl⟩
abbrev main_call3_c_3 : Ref sig .tc := ⟨.hbm, 202, rfl⟩
abbrev main_call3_v12 : Ref sig .tc := ⟨.hbm, 203, rfl⟩
abbrev main_call3_v13 : Ref sig .tc := ⟨.hbm, 204, rfl⟩
abbrev main_call3_v14 : Ref sig .tc := ⟨.hbm, 205, rfl⟩
abbrev main_call3_cst : Ref sig .tc := ⟨.hbm, 206, rfl⟩
abbrev main_call3_v15 : Ref sig .tc := ⟨.hbm, 207, rfl⟩
abbrev main_v80 : Ref sig .tc := ⟨.hbm, 208, rfl⟩
abbrev main_cst_13 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_v85 : Ref sig .tc := ⟨.hbm, 214, rfl⟩
abbrev main_v86 : Ref sig .tc := ⟨.hbm, 215, rfl⟩
abbrev main_v87 : Ref sig .tc := ⟨.hbm, 216, rfl⟩
abbrev main_call4_c : Ref sig .tc := ⟨.hbm, 217, rfl⟩
abbrev main_call4_v0 : Ref sig .tc := ⟨.hbm, 218, rfl⟩
abbrev main_call4_v1 : Ref sig .tc := ⟨.hbm, 219, rfl⟩
abbrev main_call4_c_0 : Ref sig .tc := ⟨.hbm, 220, rfl⟩
abbrev main_call4_v2 : Ref sig .tc := ⟨.hbm, 221, rfl⟩
abbrev main_call4_v3 : Ref sig .tc := ⟨.hbm, 222, rfl⟩
abbrev main_call4_v4 : Ref sig .tc := ⟨.hbm, 223, rfl⟩
abbrev main_call4_v5 : Ref sig .tc := ⟨.hbm, 224, rfl⟩
abbrev main_call4_c_1 : Ref sig .tc := ⟨.hbm, 225, rfl⟩
abbrev main_call4_c_2 : Ref sig .tc := ⟨.hbm, 226, rfl⟩
abbrev main_call4_v6 : Ref sig .tc := ⟨.hbm, 227, rfl⟩
abbrev main_call4_v7 : Ref sig .tc := ⟨.hbm, 228, rfl⟩
abbrev main_call4_v8 : Ref sig .tc := ⟨.hbm, 229, rfl⟩
abbrev main_call4_v9 : Ref sig .tc := ⟨.hbm, 230, rfl⟩
abbrev main_call4_v10 : Ref sig .tc := ⟨.hbm, 231, rfl⟩
abbrev main_call4_v11 : Ref sig .tc := ⟨.hbm, 232, rfl⟩
abbrev main_call4_c_3 : Ref sig .tc := ⟨.hbm, 233, rfl⟩
abbrev main_call4_v12 : Ref sig .tc := ⟨.hbm, 234, rfl⟩
abbrev main_call4_v13 : Ref sig .tc := ⟨.hbm, 235, rfl⟩
abbrev main_call4_v14 : Ref sig .tc := ⟨.hbm, 236, rfl⟩
abbrev main_call4_cst : Ref sig .tc := ⟨.hbm, 237, rfl⟩
abbrev main_call4_v15 : Ref sig .tc := ⟨.hbm, 238, rfl⟩
abbrev main_v88 : Ref sig .tc := ⟨.hbm, 239, rfl⟩
abbrev main_cst_14 : Ref sig .tc := ⟨.hbm, 240, rfl⟩
abbrev main_v89 : Ref sig .tc := ⟨.hbm, 241, rfl⟩
abbrev main_v90 : Ref sig .tc := ⟨.hbm, 242, rfl⟩
abbrev main_v91 : Ref sig .tc := ⟨.hbm, 243, rfl⟩
abbrev main_v92 : Ref sig .tc := ⟨.hbm, 244, rfl⟩
abbrev main_v93 : Ref sig .tc := ⟨.hbm, 245, rfl⟩
abbrev main_v94 : Ref sig .tc := ⟨.hbm, 246, rfl⟩
abbrev main_v95 : Ref sig .tc := ⟨.hbm, 247, rfl⟩
abbrev main_v96 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc4_stg7_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem7_1 : DmaSem sig := 42

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  concatenates_S128x32_S128x32_S128x32_S128x32_S128x128_d1 : Shape.Concatenates [S128x32, S128x32, S128x32, S128x32] S128x128 1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S200000x128_S200000x32_0_0 : S200000x128.Slices ![0, 0] S200000x32
  slices_S200000x128_S200000x32_0_64 : S200000x128.Slices ![0, 64] S200000x32
  concatenates_S64x32_S64x32_S64x64_d1 : Shape.Concatenates [S64x32, S64x32] S64x64 1
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S100000x64_S100000x32_0_0 : S100000x64.Slices ![0, 0] S100000x32
  slices_S2x1000000_S1x1000000_1_0 : S2x1000000.Slices ![1, 0] S1x1000000
  shapeCasts_S1x1000000_S1000000 : S1x1000000.ShapeCasts S1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  shapeCasts_S200000_S200000x1 : S200000.ShapeCasts S200000x1
  bcast_S_S100000 : S_.BroadcastsInDim S100000 (![] : Fin 0 → Fin S100000.rank)
  shapeCasts_S100000_S100000x1 : S100000.ShapeCasts S100000x1
  bcast_S_S200000x1 : S_.BroadcastsInDim S200000x1 (![] : Fin 0 → Fin S200000x1.rank)
  bcast_S_S100000x1 : S_.BroadcastsInDim S100000x1 (![] : Fin 0 → Fin S100000x1.rank)
  concatenates_S200000x1_S200000x1_S200000x2_d1 : Shape.Concatenates [S200000x1, S200000x1] S200000x2 1
  slices_S2x1000000_S1x1000000_0_0 : S2x1000000.Slices ![0, 0] S1x1000000
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x32_0 : S1000000.BroadcastsInDim S1000000x32 (![0] : Fin 1 → Fin S1000000x32.rank)
  bcast_S_S1000000x32 : S_.BroadcastsInDim S1000000x32 (![] : Fin 0 → Fin S1000000x32.rank)
  bcast_S_S200000x32 : S_.BroadcastsInDim S200000x32 (![] : Fin 0 → Fin S200000x32.rank)
  bcast_S_S100000x32 : S_.BroadcastsInDim S100000x32 (![] : Fin 0 → Fin S100000x32.rank)
  concatenates_S200000x32_S200000x32_S200000x64_d1 : Shape.Concatenates [S200000x32, S200000x32] S200000x64 1
  concatenates_S32x32_S32x32_S32x32_S32x96_d1 : Shape.Concatenates [S32x32, S32x32, S32x32] S32x96 1
  shapeCasts_S32_S1x32 : S32.ShapeCasts S1x32
  inb_S5000x64_S5000x32_0_0 : ∀ a, (![0, 0] : Fin 2 → Nat) a + S5000x32.size a ≤ S5000x64.size a
  h_S5000x32 : 0 < S5000x32.numel
  shapeCasts_S5000x32_S5000x32 : S5000x32.ShapeCasts S5000x32
  inb_S5000x64_S5000x32_0_32 : ∀ a, (![0, 32] : Fin 2 → Nat) a + S5000x32.size a ≤ S5000x64.size a
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S5000x2_S5000x1_0_1 : ∀ a, (![0, 1] : Fin 2 → Nat) a + S5000x1.size a ≤ S5000x2.size a
  inb_S5000x128_S5000x32_0_32 : ∀ a, (![0, 32] : Fin 2 → Nat) a + S5000x32.size a ≤ S5000x128.size a
  inb_S5000x128_S5000x32_0_96 : ∀ a, (![0, 96] : Fin 2 → Nat) a + S5000x32.size a ≤ S5000x128.size a
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S5000x96_S5000x96_0_0 : ∀ a, (![0, 0] : Fin 2 → Nat) a + S5000x96.size a ≤ S5000x96.size a
  h_S5000x96 : 0 < S5000x96.numel
  inb_S5000x32_S5000x32_0_0 : ∀ a, (![0, 0] : Fin 2 → Nat) a + S5000x32.size a ≤ S5000x32.size a
  inb_S5000x1_S5000x1_0_0 : ∀ a, (![0, 0] : Fin 2 → Nat) a + S5000x1.size a ≤ S5000x1.size a
  inb_S32x32_S32x32_0_0 : ∀ a, (![0, 0] : Fin 2 → Nat) a + S32x32.size a ≤ S32x32.size a
  h_S32x32 : 0 < S32x32.numel
  slices_S200000x96_S200000x32_0_0 : S200000x96.Slices ![0, 0] S200000x32
  shapeCasts_S1_S1x1 : S1.ShapeCasts S1x1
  inb_S5000x96_S5000x32_0_32 : ∀ a, (![0, 32] : Fin 2 → Nat) a + S5000x32.size a ≤ S5000x96.size a
  inb_S5000x96_S5000x32_0_64 : ∀ a, (![0, 64] : Fin 2 → Nat) a + S5000x32.size a ≤ S5000x96.size a
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  dot_S5000x128_S128x128_S5000x128_1_0_0_1_n_n_wf : DotDims.WF S5000x128 S128x128 S5000x128 [1] [0] [0] [1] [] []
  dot_S5000x64_S64x64_S5000x64_1_0_0_1_n_n_wf : DotDims.WF S5000x64 S64x64 S5000x64 [1] [0] [0] [1] [] []
  scatter_S200000_S1000000x1_S1000000_n_0_0_1_wf : ScatterDims.WF S200000 S1000000x1 S1000000 [] [0] [0] 1
  scatter_S100000_S1000000x1_S1000000_n_0_0_1_wf : ScatterDims.WF S100000 S1000000x1 S1000000 [] [0] [0] 1
  gather_S200000x32_S1000000x1_S1000000x32_1_0_n_n_0_1_132_wf : GatherDims.WF S200000x32 S1000000x1 S1000000x32 [1] [0] [] [0] [] 1 ![1, 32]
  scatter_S200000x32_S1000000x1_S1000000x32_1_0_0_1_wf : ScatterDims.WF S200000x32 S1000000x1 S1000000x32 [1] [0] [0] 1
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  dot_S5000x32_S32x96_S5000x96_1_0_0_1_n_n_wf : DotDims.WF S5000x32 S32x96 S5000x96 [1] [0] [0] [1] [] []
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S200000x128.size a
  hwx0_2 : ∀ i : grid0.Coords, EltTy.bits .f32 = 32 ∨ (Rect.block (s := S200000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S200000x2.size a
  hwx2_1 : ∀ i : grid2.Coords, EltTy.bits .f32 = 32 ∨ (Rect.block (s := S200000x2) S5000x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S200000x128.size a
  hwx2_2 : ∀ i : grid2.Coords, EltTy.bits .f32 = 32 ∨ (Rect.block (s := S200000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x96.size a ≤ S32x96.size a
  hwx2_5 : ∀ i : grid2.Coords, EltTy.bits .f32 = 32 ∨ (Rect.block (s := S32x96) S32x96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x96.size a ≤ S200000x96.size a
  hwx2_6 : ∀ i : grid2.Coords, EltTy.bits .f32 = 32 ∨ (Rect.block (s := S200000x96) S5000x96.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S200000x64.size a
  hwx4_0 : ∀ i : grid4.Coords, EltTy.bits .f32 = 32 ∨ (Rect.block (s := S200000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x2.size a ≤ S200000x2.size a
  hwx4_1 : ∀ i : grid4.Coords, EltTy.bits .f32 = 32 ∨ (Rect.block (s := S200000x2) S5000x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x96.size a ≤ S200000x96.size a
  hwx4_2 : ∀ i : grid4.Coords, EltTy.bits .f32 = 32 ∨ (Rect.block (s := S200000x96) S5000x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x1.size a ≤ S32x1.size a
  hwx4_5 : ∀ i : grid4.Coords, EltTy.bits .f32 = 32 ∨ (Rect.block (s := S32x1) S32x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S200000x1.size a
  hwx4_7 : ∀ i : grid4.Coords, EltTy.bits .f32 = 32 ∨ (Rect.block (s := S200000x1) S5000x1.size (cc4_transform_7 i) (hinb4_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S200000x32_S1000000x1_S1000000x32_1_0_n_n_0_1_132 : GatherDims S200000x32 S1000000x1 S1000000x32 where
  offsetDims := [1]
  collapsedSliceDims := [0]
  operandBatchingDims := []
  startIndicesBatchingDims := []
  startIndexMap := [0]
  indexVectorDim := 1
  sliceSizes := ![1, 32]
  wf := gather_S200000x32_S1000000x1_S1000000x32_1_0_n_n_0_1_132_wf
def scatter_S200000x32_S1000000x1_S1000000x32_1_0_0_1 : ScatterDims S200000x32 S1000000x1 S1000000x32 where
  updateWindowDims := [1]
  insertedWindowDims := [0]
  scatterDimsToOperandDims := [0]
  indexVectorDim := 1
  wf := scatter_S200000x32_S1000000x1_S1000000x32_1_0_0_1_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S5000x32_S32x96_S5000x96_1_0_0_1_n_n : DotDims S5000x32 S32x96 S5000x96 where
  lhsContracting := [1]
  rhsContracting := [0]
  lhsNonContracting := [0]
  rhsNonContracting := [1]
  lhsBatch := []
  rhsBatch := []
  wf := dot_S5000x32_S32x96_S5000x96_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S32x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S5000x96.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S5000x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x96.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg23) S32x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v96) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S200000x128 : Shape := ⟨2, ![200000, 128]⟩
abbrev S100000x64 : Shape := ⟨2, ![100000, 64]⟩
abbrev S2x1000000 : Shape := ⟨2, ![2, 1000000]⟩
abbrev S128x32 : Shape := ⟨2, ![128, 32]⟩
abbrev S32 : Shape := ⟨1, ![32]⟩
abbrev S64x32 : Shape := ⟨2, ![64, 32]⟩
abbrev S32x32 : Shape := ⟨2, ![32, 32]⟩
abbrev S32x1 : Shape := ⟨2, ![32, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S200000x32 : Shape := ⟨2, ![200000, 32]⟩
abbrev S1x32 : Shape := ⟨2, ![1, 32]⟩
abbrev S1000000x64 : Shape := ⟨2, ![1000000, 64]⟩
abbrev S200000x64 : Shape := ⟨2, ![200000, 64]⟩
abbrev S100000x128 : Shape := ⟨2, ![100000, 128]⟩
abbrev S100000 : Shape := ⟨1, ![100000]⟩
abbrev S100000x1 : Shape := ⟨2, ![100000, 1]⟩
abbrev S100000x32 : Shape := ⟨2, ![100000, 32]⟩
abbrev S1000000x32 : Shape := ⟨2, ![1000000, 32]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S200000x128, .f32⟩
  | 1 => ⟨S100000x64, .f32⟩
  | 2 => ⟨S2x1000000, .i32⟩
  | 3 => ⟨S2x1000000, .i32⟩
  | 4 => ⟨S2x1000000, .i32⟩
  | 5 => ⟨S128x32, .f32⟩
  | 6 => ⟨S32, .f32⟩
  | 7 => ⟨S128x32, .f32⟩
  | 8 => ⟨S64x32, .f32⟩
  | 9 => ⟨S32, .f32⟩
  | 10 => ⟨S128x32, .f32⟩
  | 11 => ⟨S128x32, .f32⟩
  | 12 => ⟨S32, .f32⟩
  | 13 => ⟨S64x32, .f32⟩
  | 14 => ⟨S32x32, .f32⟩
  | 15 => ⟨S32, .f32⟩
  | 16 => ⟨S32x32, .f32⟩
  | 17 => ⟨S32x32, .f32⟩
  | 18 => ⟨S32, .f32⟩
  | 19 => ⟨S32x32, .f32⟩
  | 20 => ⟨S32x32, .f32⟩
  | 21 => ⟨S32, .f32⟩
  | 22 => ⟨S32x32, .f32⟩
  | 23 => ⟨S32x1, .f32⟩
  | 24 => ⟨S1, .f32⟩
  | 25 => ⟨S1x1000000, .i32⟩
  | 26 => ⟨S1000000, .i32⟩
  | 27 => ⟨S1x1000000, .i32⟩
  | 28 => ⟨S1000000, .i32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x128, .f32⟩
  | 38 => ⟨S_, .f32⟩
  | 39 => ⟨S200000x128, .f32⟩
  | 40 => ⟨S1000000x1, .i32⟩
  | 41 => ⟨S200000x128, .f32⟩
  | 42 => ⟨S_, .f32⟩
  | 43 => ⟨S1000000, .f32⟩
  | 44 => ⟨S_, .f32⟩
  | 45 => ⟨S200000, .f32⟩
  | 46 => ⟨S1000000x1, .i32⟩
  | 47 => ⟨S200000, .f32⟩
  | 48 => ⟨S_, .f32⟩
  | 49 => ⟨S200000, .f32⟩
  | 50 => ⟨S200000, .f32⟩
  | 51 => ⟨S200000x1, .f32⟩
  | 52 => ⟨S200000x128, .f32⟩
  | 53 => ⟨S200000x128, .f32⟩
  | 54 => ⟨S200000x32, .f32⟩
  | 55 => ⟨S1x32, .f32⟩
  | 56 => ⟨S200000x32, .f32⟩
  | 57 => ⟨S200000x32, .f32⟩
  | 58 => ⟨S200000x32, .f32⟩
  | 59 => ⟨S200000x32, .f32⟩
  | 60 => ⟨S1x1000000, .i32⟩
  | 61 => ⟨S1000000, .i32⟩
  | 62 => ⟨S1x1000000, .i32⟩
  | 63 => ⟨S1000000, .i32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S_, .f32⟩
  | 74 => ⟨S200000x64, .f32⟩
  | 75 => ⟨S1000000x1, .i32⟩
  | 76 => ⟨S200000x64, .f32⟩
  | 77 => ⟨S_, .f32⟩
  | 78 => ⟨S1000000, .f32⟩
  | 79 => ⟨S_, .f32⟩
  | 80 => ⟨S200000, .f32⟩
  | 81 => ⟨S1000000x1, .i32⟩
  | 82 => ⟨S200000, .f32⟩
  | 83 => ⟨S_, .f32⟩
  | 84 => ⟨S200000, .f32⟩
  | 85 => ⟨S200000, .f32⟩
  | 86 => ⟨S200000x1, .f32⟩
  | 87 => ⟨S200000x64, .f32⟩
  | 88 => ⟨S200000x64, .f32⟩
  | 89 => ⟨S200000x32, .f32⟩
  | 90 => ⟨S1x32, .f32⟩
  | 91 => ⟨S200000x32, .f32⟩
  | 92 => ⟨S200000x32, .f32⟩
  | 93 => ⟨S200000x32, .f32⟩
  | 94 => ⟨S200000x32, .f32⟩
  | 95 => ⟨S200000x32, .f32⟩
  | 96 => ⟨S_, .f32⟩
  | 97 => ⟨S200000x32, .f32⟩
  | 98 => ⟨S200000x32, .f32⟩
  | 99 => ⟨S1x1000000, .i32⟩
  | 100 => ⟨S1000000, .i32⟩
  | 101 => ⟨S1x1000000, .i32⟩
  | 102 => ⟨S1000000, .i32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x128, .f32⟩
  | 112 => ⟨S_, .f32⟩
  | 113 => ⟨S100000x128, .f32⟩
  | 114 => ⟨S1000000x1, .i32⟩
  | 115 => ⟨S100000x128, .f32⟩
  | 116 => ⟨S_, .f32⟩
  | 117 => ⟨S1000000, .f32⟩
  | 118 => ⟨S_, .f32⟩
  | 119 => ⟨S100000, .f32⟩
  | 120 => ⟨S1000000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S200000x128, .f32⟩

abbrev hbmTy0_1 (i : Nat) : BufTy := match i % 128 with
  | 0 => ⟨S100000x32, .f32⟩
  | 1 => ⟨S1x32, .f32⟩
  | 2 => ⟨S100000x32, .f32⟩
  | 3 => ⟨S100000x32, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S1x1000000, .i32⟩
  | 10 => ⟨S1000000, .i32⟩
  | 11 => ⟨S1x1000000, .i32⟩
  | 12 => ⟨S1000000, .i32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x32, .f32⟩
  | 22 => ⟨S_, .f32⟩
  | 23 => ⟨S200000x32, .f32⟩
  | 24 => ⟨S1000000x1, .i32⟩
  | 25 => ⟨S200000x32, .f32⟩
  | 26 => ⟨S_, .f32⟩
  | 27 => ⟨S1000000, .f32⟩
  | 28 => ⟨S_, .f32⟩
  | 29 => ⟨S200000, .f32⟩
  | 30 => ⟨S1000000x1, .i32⟩
  | 31 => ⟨S200000, .f32⟩
  | 32 => ⟨S_, .f32⟩
  | 33 => ⟨S200000, .f32⟩
  | 34 => ⟨S200000, .f32⟩
  | 35 => ⟨S200000x1, .f32⟩
  | 36 => ⟨S200000x32, .f32⟩
  | 37 => ⟨S200000x32, .f32⟩
  | 38 => ⟨S200000x32, .f32⟩
  | 39 => ⟨S1x32, .f32⟩
  | 40 => ⟨S200000x32, .f32⟩
  | 41 => ⟨S200000x32, .f32⟩
  | 42 => ⟨S200000x32, .f32⟩
  | 43 => ⟨S200000x32, .f32⟩
  | 44 => ⟨S1x1000000, .i32⟩
  | 45 => ⟨S1000000, .i32⟩
  | 46 => ⟨S1x1000000, .i32⟩
  | 47 => ⟨S1000000, .i32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x32, .f32⟩
  | 57 => ⟨S_, .f32⟩
  | 58 => ⟨S200000x32, .f32⟩
  | 59 => ⟨S1000000x1, .i32⟩
  | 60 => ⟨S200000x32, .f32⟩
  | 61 => ⟨S_, .f32⟩
  | 62 => ⟨S1000000, .f32⟩
  | 63 => ⟨S_, .f32⟩
  | 64 => ⟨S200000, .f32⟩
  | 65 => ⟨S1000000x1, .i32⟩
  | 66 => ⟨S200000, .f32⟩
  | 67 => ⟨S_, .f32⟩
  | 68 => ⟨S200000, .f32⟩
  | 69 => ⟨S200000, .f32⟩
  | 70 => ⟨S200000x1, .f32⟩
  | 71 => ⟨S200000x32, .f32⟩
  | 72 => ⟨S200000x32, .f32⟩
  | 73 => ⟨S200000x32, .f32⟩
  | 74 => ⟨S1x32, .f32⟩
  | 75 => ⟨S200000x32, .f32⟩
  | 76 => ⟨S200000x32, .f32⟩
  | 77 => ⟨S200000x32, .f32⟩
  | 78 => ⟨S200000x32, .f32⟩
  | 79 => ⟨S200000x32, .f32⟩
  | 80 => ⟨S200000x1, .f32⟩
  | 81 => ⟨S1x1, .f32⟩
  | 82 => ⟨S200000x1, .f32⟩
  | 83 => ⟨S200000x1, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_cst_8 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call0_cst : Ref sig .tc := ⟨.hbm, 96, rfl⟩
abbrev main_call0_v0 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_10 : Ref sig .tc := ⟨.hbm, 103, rfl⟩
abbrev main_v64 : Ref sig .tc := ⟨.hbm, 104, rfl⟩
abbrev main_v65 : Ref sig .tc := ⟨.hbm, 105, rfl⟩
abbrev main_c_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_13 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_15 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call1_cst : Ref sig .tc := ⟨.hbm, 134, rfl⟩
abbrev main_call1_v0 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_c_16 : Ref sig .tc := ⟨.hbm, 141, rfl⟩
abbrev main_v94 : Ref sig .tc := ⟨.hbm, 142, rfl⟩
abbrev main_v95 : Ref sig .tc := ⟨.hbm, 143, rfl⟩
abbrev main_c_17 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_18 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_19 : Ref sig .tc := ⟨.hbm, 154, rfl⟩
abbrev main_v104 : Ref sig .tc := ⟨.hbm, 155, rfl⟩
abbrev main_cst_20 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_21 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_c_22 : Ref sig .tc := ⟨.hbm, 176, rfl⟩
abbrev main_v123 : Ref sig .tc := ⟨.hbm, 177, rfl⟩
abbrev main_v124 : Ref sig .tc := ⟨.hbm, 178, rfl⟩
abbrev main_c_23 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_24 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_25 : Ref sig .tc := ⟨.hbm, 189, rfl⟩
abbrev main_v133 : Ref sig .tc := ⟨.hbm, 190, rfl⟩
abbrev main_cst_26 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_27 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S_S200000x32 : S_.BroadcastsInDim S200000x32 (![] : Fin 0 → Fin S200000x32.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S200000x1_S200000x32_0_1 : S200000x1.BroadcastsInDim S200000x32 (![0, 1] : Fin 2 → Fin S200000x32.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x128_S128x32_S200000x32_1_0_0_1_n_n_wf : DotDims.WF S200000x128 S128x32 S200000x32 [1] [0] [0] [1] [] []
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  dot_S200000x64_S64x32_S200000x32_1_0_0_1_n_n_wf : DotDims.WF S200000x64 S64x32 S200000x32 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x32_S100000x32_1_0_0_1_n_n_wf : DotDims.WF S100000x128 S128x32 S100000x32 [1] [0] [0] [1] [] []
  dot_S100000x64_S64x32_S100000x32_1_0_0_1_n_n_wf : DotDims.WF S100000x64 S64x32 S100000x32 [1] [0] [0] [1] [] []
  gather_S200000x32_S1000000x1_S1000000x32_1_0_n_n_0_1_132_wf : GatherDims.WF S200000x32 S1000000x1 S1000000x32 [1] [0] [] [0] [] 1 ![1, 32]
  scatter_S200000x32_S1000000x1_S1000000x32_1_0_0_1_wf : ScatterDims.WF S200000x32 S1000000x1 S1000000x32 [1] [0] [0] 1
  dot_S200000x32_S32x32_S200000x32_1_0_0_1_n_n_wf : DotDims.WF S200000x32 S32x32 S200000x32 [1] [0] [0] [1] [] []
  gather_S100000x32_S1000000x1_S1000000x32_1_0_n_n_0_1_132_wf : GatherDims.WF S100000x32 S1000000x1 S1000000x32 [1] [0] [] [0] [] 1 ![1, 32]
  dot_S200000x32_S32x1_S200000x1_1_0_0_1_n_n_wf : DotDims.WF S200000x32 S32x1 S200000x1 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S200000x32_S1000000x1_S1000000x32_1_0_n_n_0_1_132 : GatherDims S200000x32 S1000000x1 S1000000x32 where
  offsetDims := [1]
  collapsedSliceDims := [0]
  operandBatchingDims := []
  startIndicesBatchingDims := []
  startIndexMap := [0]
  indexVectorDim := 1
  sliceSizes := ![1, 32]
  wf := gather_S200000x32_S1000000x1_S1000000x32_1_0_n_n_0_1_132_wf
def scatter_S200000x32_S1000000x1_S1000000x32_1_0_0_1 : ScatterDims S200000x32 S1000000x1 S1000000x32 where
  updateWindowDims := [1]
  insertedWindowDims := [0]
  scatterDimsToOperandDims := [0]
  indexVectorDim := 1
  wf := scatter_S200000x32_S1000000x1_S1000000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.K.Body0.lean ====
import proofs.«417774_j30605936951692_3_alg».proof.Proof.Gen.Kernel.Launch
import proofs.«417774_j30605936951692_3_alg».proof.Proof.Gen.Kernel.Skeleton
import proofs.«417774_j30605936951692_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frame
-- ==== Proof.K.Body1.lean ====
import proofs.«417774_j30605936951692_3_alg».proof.Proof.Gen.Kernel.Launch
import proofs.«417774_j30605936951692_3_alg».proof.Proof.Gen.Kernel.Skeleton
import proofs.«417774_j30605936951692_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0

abbrev r1_1 : Rect S64x64 := Rect.unit (s := S64x64) ![0, 0] S64x64.size inb_S64x64_S64x64_0_0

def out1_2 (x0 : Vec F S5000x64 .f32) (x1 : Vec F S64x64 .f32) : Vec F S5000x64 .f32 :=
  View.canon [⟨r1_0, k1_pay1 (View.ld x0 r1_0) (View.ld x1 r1_1)⟩]

theorem cover1_2 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in

theorem sound_kernel1 (c : Dev nD) (E : Set ℕ) (i : grid1.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Frame
-- ==== Proof.K.Body2.lean ====
import proofs.«417774_j30605936951692_3_alg».proof.Proof.Gen.Kernel.Launch
import proofs.«417774_j30605936951692_3_alg».proof.Proof.Gen.Kernel.Skeleton
import proofs.«417774_j30605936951692_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x32.size inb_S5000x64_S5000x32_0_0
abbrev r2_1 : Rect S5000x64 := Rect.unit (s := S5000x64) ![0, 32] S5000x32.size inb_S5000x64_S5000x32_0_32

abbrev r2_2 : Rect S5000x2 := Rect.unit (s := S5000x2) ![0, 0] S5000x1.size inb_S5000x2_S5000x1_0_0
abbrev r2_3 : Rect S5000x2 := Rect.unit (s := S5000x2) ![0, 1] S5000x1.size inb_S5000x2_S5000x1_0_1

abbrev r2_4 : Rect S5000x128 := Rect.unit (s := S5000x128) ![0, 32] S5000x32.size inb_S5000x128_S5000x32_0_32
abbrev r2_5 : Rect S5000x128 := Rect.unit (s := S5000x128) ![0, 96] S5000x32.size inb_S5000x128_S5000x32_0_96

abbrev r2_6 : Rect S1x32 := Rect.unit (s := S1x32) ![0, 0] S1x32.size inb_S1x32_S1x32_0_0
abbrev r2_7 : Rect S32x96 := Rect.unit (s := S32x96) ![0, 0] S32x96.size inb_S32x96_S32x96_0_0
abbrev r2_8 : Rect S5000x96 := Rect.unit (s := S5000x96) ![0, 0] S5000x96.size inb_S5000x96_S5000x96_0_0

def out2_6 (x0 : Vec F S5000x64 .f32) (x1 : Vec F S5000x2 .f32) (x2 : Vec F S5000x128 .f32) (x3 : Vec F S1x32 .f32) (x4 : Vec F S1x32 .f32) (x5 : Vec F S32x96 .f32) : Vec F S5000x96 .f32 :=
  View.canon [⟨r2_8, k2_pay1 (View.ld x0 r2_0) (View.ld x0 r2_1) (View.ld x1 r2_2) (View.ld x1 r2_3) (View.ld x2 r2_4) (View.ld x2 r2_5) (View.ld x3 r2_6) (View.ld x4 r2_6) (View.ld x5 r2_7)⟩]

theorem cover2_6 (p0 : Vec F S5000x96 .f32) (y : S5000x96.Idx) :
    ∃ pc ∈ ([⟨r2_8, p0⟩] : List (View.Piece (Elt F) S5000x96 .f32)), y ∈ pc.1.set :=
  View.cover_of_tiled [⟨r2_8, p0⟩] S5000x96.size (by rfl) y

set_option maxHeartbeats 4000000 in

theorem sound_kernel2 (c : Dev nD) (E : Set ℕ) (i : grid2.Coords) (arg1 : Memref sig .tc .vmem S5000x64 .f32) (harg1 : arg1.IsWhole) (arg2 : Memref sig .tc .vmem S5000x2 .f32) (harg2 : arg2.IsWhole) (arg3 : Memref sig .tc .vmem S5000x128 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x96 .f32) (harg6 : arg6.IsWhole) (arg7 : Memref sig .tc .vmem S5000x96 .f32) (harg7 : arg7.IsWhole)
    (x0 : Vec F S5000x64 .f32) (x1 : Vec F S5000x2 .f32) (x2 : Vec F S5000x128 .f32) (x3 : Vec F S1x32 .f32) (x4 : Vec F S1x32 .f32) (x5 : Vec F S32x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__k_layer1_paper_proj2 i arg1 harg1 arg2 harg2 arg3 harg3 arg4 harg4 arg5 harg5 arg6 harg6 arg7 harg7) K := by
  simp only [cc2__k_layer1_paper_proj2_eq_skeleton]; unfold cc2__k_layer1_paper_proj2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Body3.lean ====
import proofs.«417774_j30605936951692_3_alg».proof.Proof.Gen.Kernel.Launch
import proofs.«417774_j30605936951692_3_alg».proof.Proof.Gen.Kernel.Skeleton
import proofs.«417774_j30605936951692_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x32 := Rect.unit (s := S5000x32) ![0, 0] S5000x32.size inb_S5000x32_S5000x32_0_0

abbrev r3_1 : Rect S5000x1 := Rect.unit (s := S5000x1) ![0, 0] S5000x1.size inb_S5000x1_S5000x1_0_0

abbrev r3_2 : Rect S5000x64 := Rect.unit (s := S5000x64) ![0, 32] S5000x32.size inb_S5000x64_S5000x32_0_32

abbrev r3_3 : Rect S1x32 := Rect.unit (s := S1x32) ![0, 0] S1x32.size inb_S1x32_S1x32_0_0

abbrev r3_4 : Rect S32x32 := Rect.unit (s := S32x32) ![0, 0] S32x32.size inb_S32x32_S32x32_0_0

def out3_5 (x0 : Vec F S5000x32 .f32) (x1 : Vec F S5000x1 .f32) (x2 : Vec F S5000x64 .f32) (x3 : Vec F S1x32 .f32)
    (x4 : Vec F S32x32 .f32) : Vec F S5000x32 .f32 :=
  View.canon [⟨r3_0, k3_pay1 (View.ld x0 r3_0) (View.ld x1 r3_1) (View.ld x2 r3_2) (View.ld x3 r3_3) (View.ld x4 r3_4)⟩]

theorem cover3_5 (p0 : Vec F S5000x32 .f32) (y : S5000x32.Idx) :
    ∃ pc ∈ ([⟨r3_0, p0⟩] : List (View.Piece (Elt F) S5000x32 .f32)), y ∈ pc.1.set :=
  View.cover_of_tiled [⟨r3_0, p0⟩] S5000x32.size (by rfl) y

set_option maxHeartbeats 1000000 in

theorem sound_kernel3 (c : Dev nD) (E : Set ℕ) (i : grid3.Coords)
    (arg1 : Memref sig .tc .vmem S5000x32 .f32) (harg1 : arg1.IsWhole) (arg2 : Memref sig .tc .vmem S5000x1 .f32) (harg2 : arg2.IsWhole)
    (arg3 : Memref sig .tc .vmem S5000x64 .f32) (harg3 : arg3.IsWhole) (arg4 : Memref sig .tc .vmem S1x32 .f32) (harg4 : arg4.IsWhole)
    (arg5 : Memref sig .tc .vmem S32x32 .f32) (harg5 : arg5.IsWhole) (arg6 : Memref sig .tc .vmem S5000x32 .f32) (harg6 : arg6.IsWhole)
    (x0 : Vec F S5000x32 .f32) (x1 : Vec F S5000x1 .f32) (x2 : Vec F S5000x64 .f32) (x3 : Vec F S1x32 .f32) (x4 : Vec F S32x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__k_layer1_author_proj2 i arg1 harg1 arg2 harg2 arg3 harg3 arg4 harg4 arg5 harg5 arg6 harg6) K := by
  simp only [cc3__k_layer1_author_proj2_eq_skeleton]; unfold cc3__k_layer1_author_proj2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Body4.lean ====
import proofs.«417774_j30605936951692_3_alg».proof.Proof.Gen.Kernel.Launch
import proofs.«417774_j30605936951692_3_alg».proof.Proof.Gen.Kernel.Skeleton
import proofs.«417774_j30605936951692_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x64 := Rect.unit (s := S5000x64) ![0, 0] S5000x32.size inb_S5000x64_S5000x32_0_0
abbrev r4_1 : Rect S5000x64 := Rect.unit (s := S5000x64) ![0, 32] S5000x32.size inb_S5000x64_S5000x32_0_32

abbrev r4_2 : Rect S5000x2 := Rect.unit (s := S5000x2) ![0, 0] S5000x1.size inb_S5000x2_S5000x1_0_0
abbrev r4_3 : Rect S5000x2 := Rect.unit (s := S5000x2) ![0, 1] S5000x1.size inb_S5000x2_S5000x1_0_1

abbrev r4_4 : Rect S5000x96 := Rect.unit (s := S5000x96) ![0, 32] S5000x32.size inb_S5000x96_S5000x32_0_32
abbrev r4_5 : Rect S5000x96 := Rect.unit (s := S5000x96) ![0, 64] S5000x32.size inb_S5000x96_S5000x32_0_64

abbrev r4_6 : Rect S1x32 := Rect.unit (s := S1x32) ![0, 0] S1x32.size inb_S1x32_S1x32_0_0
abbrev r4_7 : Rect S32x1 := Rect.unit (s := S32x1) ![0, 0] S32x1.size inb_S32x1_S32x1_0_0
abbrev r4_8 : Rect S1x1 := Rect.unit (s := S1x1) ![0, 0] S1x1.size inb_S1x1_S1x1_0_0

abbrev r4_9 : Rect S5000x1 := Rect.unit (s := S5000x1) ![0, 0] S5000x1.size inb_S5000x1_S5000x1_0_0

def out4_7 (x0 : Vec F S5000x64 .f32) (x1 : Vec F S5000x2 .f32) (x2 : Vec F S5000x96 .f32) (x3 : Vec F S1x32 .f32)
    (x4 : Vec F S1x32 .f32) (x5 : Vec F S32x1 .f32) (x6 : Vec F S1x1 .f32) : Vec F S5000x1 .f32 :=
  View.canon [⟨r4_9, k4_pay1 (View.ld x0 r4_0) (View.ld x1 r4_2) (View.ld x0 r4_1) (View.ld x1 r4_3) (View.ld x2 r4_4)
    (View.ld x2 r4_5) (View.ld x3 r4_6) (View.ld x4 r4_6) (View.ld x5 r4_7) (View.ld x6 r4_8)⟩]

theorem cover4_7 (p0 : Vec F S5000x1 .f32) (y : S5000x1.Idx) :
    ∃ pc ∈ ([⟨r4_9, p0⟩] : List (View.Piece (Elt F) S5000x1 .f32)), y ∈ pc.1.set :=
  View.cover_of_tiled [⟨r4_9, p0⟩] S5000x1.size (by rfl) y

set_option maxHeartbeats 4000000 in

theorem sound_kernel4 (c : Dev nD) (E : Set ℕ) (i : grid4.Coords)
    (arg0 : Memref sig .tc .vmem S5000x64 .f32) (harg0 : arg0.IsWhole)
    (arg1 : Memref sig .tc .vmem S5000x2 .f32) (harg1 : arg1.IsWhole)
    (arg2 : Memref sig .tc .vmem S5000x96 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S32x1 .f32) (harg5 : arg5.IsWhole)
    (arg6 : Memref sig .tc .vmem S1x1 .f32) (harg6 : arg6.IsWhole)
    (arg7 : Memref sig .tc .vmem S5000x1 .f32) (harg7 : arg7.IsWhole)
    (x0 : Vec F S5000x64 .f32) (x1 : Vec F S5000x2 .f32) (x2 : Vec F S5000x96 .f32) (x3 : Vec F S1x32 .f32) (x4 : Vec F S1x32 .f32) (x5 : Vec F S32x1 .f32) (x6 : Vec F S1x1 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out4_7 x0 x1 x2 x3 x4 x5 x6)) -∗ K ⟨⟩))
      ⊢ wp frame (wpE (defs₀ (F := F)) Variants.none c none) E (cc4__k_layer2_head i arg0 harg0 arg1 harg1 arg2 harg2 arg3 harg3 arg4 harg4 arg5 harg5 arg6 harg6 arg7 harg7) K := by
  simp only [cc4__k_layer2_head_eq_skeleton]; unfold cc4__k_layer2_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.K.Run.lean ====
import proofs.«417774_j30605936951692_3_alg».proof.Proof.K.Body0
import proofs.«417774_j30605936951692_3_alg».proof.Proof.K.Body1
import proofs.«417774_j30605936951692_3_alg».proof.Proof.K.Body2
import proofs.«417774_j30605936951692_3_alg».proof.Proof.K.Body3
import proofs.«417774_j30605936951692_3_alg».proof.Proof.K.Body4
import proofs.«417774_j30605936951692_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 5) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem isIn0 : ∀ w : Fin cfg0.W, Pipeline.arrRef spec0 w ∉ ([main_v1] : List (Ref sig .tc)) → (cfg0.win w).isOut = false := by decide

theorem W2_keep (c : Dev nD) (r : Ref sig .tc) (h : r ∉ ([main_v1] : List (Ref sig .tc))) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (isIn0 w h) _).trans (A_eq0 (V1 m ρ) c w))
  · exact W2_of_ne m ρ c r fun w e => hr ⟨w, e⟩

abbrev W3 : Dev nD → Valuation τ sig (Elt F) := fun c => StableHlo.after hostOps1 (W2 m ρ c)

theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem isIn1 : ∀ w : Fin cfg1.W, Pipeline.arrRef spec1 w ∉ ([main_v5] : List (Ref sig .tc)) → (cfg1.win w).isOut = false := by decide

theorem W4_keep (c : Dev nD) (r : Ref sig .tc) (h : r ∉ ([main_v5] : List (Ref sig .tc))) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (isIn1 w h) _).trans (A_eq1 (V3 m ρ) c w))
  · exact W4_of_ne m ρ c r fun w e => hr ⟨w, e⟩

abbrev W5 : Dev nD → Valuation τ sig (Elt F) := fun c => StableHlo.after hostOps2 (W4 m ρ c)

theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W6 : Dev nD → Valuation τ sig (Elt F) := fun c => StableHlo.after hostOps2_1 (W5 m ρ c)

theorem W6_keep (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h

abbrev W7 : Dev nD → Valuation τ sig (Elt F) := fun c => StableHlo.after hostOps2_2 (W6 m ρ c)

theorem W7_keep (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h

abbrev W8 : Dev nD → Valuation τ sig (Elt F) := fun c => StableHlo.after hostOps2_3 (W7 m ρ c)

theorem W8_keep (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h

abbrev W9 : Dev nD → Valuation τ sig (Elt F) := fun c => StableHlo.after hostOps2_4 (W8 m ρ c)

theorem W9_keep (c : Dev nD) (r : Ref sig .tc) (h : r ∉ hostOps2_4_W) :
    W9 m ρ c (Proc.devRef .tc r) = W8 m ρ c (Proc.devRef .tc r) :=
  StableHlo.after_of_writes_sub hostOps2_4 _ hostOps2_4_writes h

abbrev W10 : Dev nD → Valuation τ sig (Elt F) := fun c => StableHlo.after hostOps2_5 (W9 m ρ c)

theorem W10_keep (c : Dev nD) (r : Ref sig .tc) (h : r ∉ hostOps2_5_W) :
    W10 m ρ c (Proc.devRef .tc r) = W9 m ρ c (Proc.devRef .tc r) :=
  StableHlo.after_of_writes_sub hostOps2_5 _ hostOps2_5_writes h

abbrev W11 : Dev nD → Valuation τ sig (Elt F) := fun c => StableHlo.after hostOps2_6 (W10 m ρ c)

theorem W11_keep (c : Dev nD) (r : Ref sig .tc) (h : r ∉ hostOps2_6_W) :
    W11 m ρ c (Proc.devRef .tc r) = W10 m ρ c (Proc.devRef .tc r) :=
  StableHlo.after_of_writes_sub hostOps2_6 _ hostOps2_6_writes h

abbrev V11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb

abbrev V12 : (c : Dev nD) → (b : Ref sig .tc) → Buf (Elt F) ((c : Thread nD τ).loc b) := fun c b => W12 m ρ c b

theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

theorem isIn2 : ∀ w : Fin cfg2.W, Pipeline.arrRef spec2 w ∉ ([main_v72] : List (Ref sig .tc)) → (cfg2.win w).isOut = false := by decide

theorem W12_keep (c : Dev nD) (r : Ref sig .tc) (h : r ∉ ([main_v72] : List (Ref sig .tc))) :
    W12 m ρ c (Proc.devRef .tc r) = W11 m ρ c (Proc.devRef .tc r) := by
  by_cases hr : ∃ w, Pipeline.arrRef spec2 w = r
  · obtain ⟨w, rfl⟩ := hr
    exact (W12_arr m ρ c w).trans (((dat2 (V11 m ρ) c).arrAt_in w (isIn2 w h) _).trans (A_eq2 (V11 m ρ) c w))
  · exact W12_of_ne m ρ c r fun w e => hr ⟨w, e⟩

abbrev W13 : Dev nD → Valuation τ sig (Elt F) := fun c => StableHlo.after hostOps3 (W12 m ρ c)

theorem W13_keep (c : Dev nD) (r : Ref sig .tc) (h : r ∉ hostOps3_W) :
    W13 m ρ c (Proc.devRef .tc r) = W12 m ρ c (Proc.devRef .tc r) :=
  StableHlo.after_of_writes_sub hostOps3 _ hostOps3_writes h

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb

abbrev V14 : (c : Dev nD) → (b : Ref sig .tc) → Buf (Elt F) ((c : Thread nD τ).loc b) := fun c b => W14 m ρ c b

theorem hF3 (c : Dev nD) (w : Fin cfg3.W) : (dat3 (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

theorem isIn3 : ∀ w : Fin cfg3.W, Pipeline.arrRef spec3 w ∉ ([main_v74] : List (Ref sig .tc)) → (cfg3.win w).isOut = false := by decide

theorem W14_keep (c : Dev nD) (r : Ref sig .tc) (h : r ∉ ([main_v74] : List (Ref sig .tc))) :
    W14 m ρ c (Proc.devRef .tc r) = W13 m ρ c (Proc.devRef .tc r) := by
  by_cases hr : ∃ w, Pipeline.arrRef spec3 w = r
  · obtain ⟨w, rfl⟩ := hr
    exact (W14_arr m ρ c w).trans (((dat3 (V13 m ρ) c).arrAt_in w (isIn3 w h) _).trans (A_eq3 (V13 m ρ) c w))
  · exact W14_of_ne m ρ c r fun w e => hr ⟨w, e⟩

abbrev W15 : Dev nD → Valuation τ sig (Elt F) := fun c => StableHlo.after hostOps4 (W14 m ρ c)

theorem W15_keep (c : Dev nD) (r : Ref sig .tc) (h : r ∉ hostOps4_W) :
    W15 m ρ c (Proc.devRef .tc r) = W14 m ρ c (Proc.devRef .tc r) :=
  StableHlo.after_of_writes_sub hostOps4 _ hostOps4_writes h

abbrev W16 : Dev nD → Valuation τ sig (Elt F) := fun c => StableHlo.after hostOps4_1 (W15 m ρ c)

theorem W16_keep (c : Dev nD) (r : Ref sig .tc) (h : r ∉ hostOps4_1_W) :
    W16 m ρ c (Proc.devRef .tc r) = W15 m ρ c (Proc.devRef .tc r) :=
  StableHlo.after_of_writes_sub hostOps4_1 _ hostOps4_1_writes h

abbrev W17 : Dev nD → Valuation τ sig (Elt F) := fun c => StableHlo.after hostOps4_2 (W16 m ρ c)

theorem W17_keep (c : Dev nD) (r : Ref sig .tc) (h : r ∉ hostOps4_2_W) :
    W17 m ρ c (Proc.devRef .tc r) = W16 m ρ c (Proc.devRef .tc r) :=
  StableHlo.after_of_writes_sub hostOps4_2 _ hostOps4_2_writes h

abbrev W18 : Dev nD → Valuation τ sig (Elt F) := fun c => StableHlo.after hostOps4_3 (W17 m ρ c)

theorem W18_keep (c : Dev nD) (r : Ref sig .tc) (h : r ∉ hostOps4_3_W) :
    W18 m ρ c (Proc.devRef .tc r) = W17 m ρ c (Proc.devRef .tc r) :=
  StableHlo.after_of_writes_sub hostOps4_3 _ hostOps4_3_writes h

abbrev W19 : Dev nD → Valuation τ sig (Elt F) := fun c => StableHlo.after hostOps4_4 (W18 m ρ c)

theorem W19_keep (c : Dev nD) (r : Ref sig .tc) (h : r ∉ hostOps4_4_W) :
    W19 m ρ c (Proc.devRef .tc r) = W18 m ρ c (Proc.devRef .tc r) :=
  StableHlo.after_of_writes_sub hostOps4_4 _ hostOps4_4_writes h

abbrev V19 : (c : Dev nD) → (b : Ref sig .tc) → Buf (Elt F) ((c : Thread nD τ).loc b) := fun c b => W19 m ρ c b

def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb

abbrev V20 : (c : Dev nD) → (b : Ref sig .tc) → Buf (Elt F) ((c : Thread nD τ).loc b) := fun c b => W20 m ρ c b

theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)

theorem isIn4 : ∀ w : Fin cfg4.W, Pipeline.arrRef spec4 w ∉ ([main_v96] : List (Ref sig .tc)) → (cfg4.win w).isOut = false := by decide

theorem W20_keep (c : Dev nD) (r : Ref sig .tc) (h : r ∉ ([main_v96] : List (Ref sig .tc))) :
    W20 m ρ c (Proc.devRef .tc r) = W19 m ρ c (Proc.devRef .tc r) := by
  by_cases hr : ∃ w, Pipeline.arrRef spec4 w = r
  · obtain ⟨w, rfl⟩ := hr
    exact (W20_arr m ρ c w).trans (((dat4 (V19 m ρ) c).arrAt_in w (isIn4 w h) _).trans (A_eq4 (V19 m ρ) c w))
  · exact W20_of_ne m ρ c r fun w e => hr ⟨w, e⟩

/-- Each item of @main leaves a buffer it does not write as it found it. -/
theorem W20_unwritten (c : Dev nD) (r : Ref sig .tc)
    (h : r ∉ hostOps0_W ∧ r ∉ [main_v1] ∧ r ∉ hostOps1_W ∧ r ∉ [main_v5] ∧ r ∉ hostOps2_W ∧ r ∉ hostOps2_1_W
      ∧ r ∉ hostOps2_2_W ∧ r ∉ hostOps2_3_W ∧ r ∉ hostOps2_4_W ∧ r ∉ hostOps2_5_W ∧ r ∉ hostOps2_6_W ∧ r ∉ [main_v72]
      ∧ r ∉ hostOps3_W ∧ r ∉ [main_v74] ∧ r ∉ hostOps4_W ∧ r ∉ hostOps4_1_W ∧ r ∉ hostOps4_2_W ∧ r ∉ hostOps4_3_W
      ∧ r ∉ hostOps4_4_W ∧ r ∉ [main_v96]) :
    W20 m ρ c (Proc.devRef .tc r) = m ((c : Thread nD τ).loc r) :=
  let ⟨h1, h2, h3, h4, h5, h6, h7, h8, h9, h10, h11, h12, h13, h14, h15, h16, h17, h18, h19, h20⟩ := h
  (W20_keep m ρ c r h20).trans <| (W19_keep m ρ c r h19).trans <| (W18_keep m ρ c r h18).trans <|
  (W17_keep m ρ c r h17).trans <| (W16_keep m ρ c r h16).trans <| (W15_keep m ρ c r h15).trans <|
  (W14_keep m ρ c r h14).trans <| (W13_keep m ρ c r h13).trans <| (W12_keep m ρ c r h12).trans <|
  (W11_keep m ρ c r h11).trans <| (W10_keep m ρ c r h10).trans <| (W9_keep m ρ c r h9).trans <|
  (W8_keep m ρ c r h8).trans <| (W7_keep m ρ c r h7).trans <| (W6_keep m ρ c r h6).trans <|
  (W5_keep m ρ c r h5).trans <| (W4_keep m ρ c r h4).trans <| (W3_keep m ρ c r h3).trans <|
  (W2_keep m ρ c r h2).trans <| (W1_keep m ρ c r h1).trans rfl

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V11 m ρ) c
  | ⟨3, _⟩ => fun c => dat3 (V13 m ρ) c
  | ⟨4, _⟩ => fun c => dat4 (V19 m ρ) c

abbrev Tₙ (c : Dev nD) : sProp 𝕄 := iprop(StableHlo.held (c : Thread nD τ) (Pipeline.ucRefs τ sig) (W20 m ρ c) ∗ ∃ r, prngReg c r)

/-- A boundary's contents read at the TensorCore's references. -/
abbrev tcOf (W : Dev nD → Valuation τ sig (Elt F)) : (c : Dev nD) → (b : Ref sig .tc) → Buf (Elt F) ((c : Thread nD τ).loc b) :=
  fun c b => W c b

set_option backward.isDefEq.respectTransparency.types false in
/-- One region of @main as a segment, from the contents at its entry to the contents at its exit. -/
def regOf (p : Fin 5) (launch : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (hΦ : ∀ c i, (pdats m ρ p c).Φ i = Pipeline.ΦA (cfgs p).spec c)
    (hq : ∀ c w, (pdats m ρ p c).q w = fullShare) (howed : ∀ c t, (pdats m ρ p c).owed t = 0)
    (hrec : ∀ c, (pdats m ρ p c).recorded 0 = Set.univ)
    (hA : ∀ c w, (pdats m ρ p c).A w = tcOf Win c (Pipeline.arrRef (cfgs p).spec w))
    (hF : ∀ c w, (pdats m ρ p c).arrAt w (cfgs p).N = tcOf Wout c (Pipeline.arrRef (cfgs p).spec w))
    (hrest : ∀ c b, b ∉ Finset.univ.image (Pipeline.arrRef (cfgs p).spec) → tcOf Wout c b = tcOf Win c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf Win c)
  hentry c := by
    rw [Pipeline.ownSems0_none]
    have hsplit := Pipeline.arrays_of_unscopedBufs (p := p) (pcfgs (F := F)) adm (pdats m ρ) launch.win launch.arr_whole c
      ((pdats m ρ p c).share_full (hq c)) (tcOf Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (tcOf Win c) (tcOf Wout c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (W2 m ρ) (fun c => (body_obligation0 (V1 m ρ) c).loose) (fun _ _ => rfl) (fun _ _ => rfl)
    (fun _ _ => rfl) (fun _ => rfl) (fun _ _ => rfl) (hF0 m ρ) (hrest0 m ρ)

set_option backward.isDefEq.respectTransparency.types false in
def reg1 : Pipeline.RegionSeg (pcfgs (F := F)) adm (pdats m ρ) () defs₀ 𝒱₀ L lv 1 :=
  regOf m ρ 1 launch1 (W3 m ρ) (W4 m ρ) (fun c => (body_obligation1 (V3 m ρ) c).loose) (fun _ _ => rfl) (fun _ _ => rfl)
    (fun _ _ => rfl) (fun _ => rfl) (fun _ _ => rfl) (hF1 m ρ) (hrest1 m ρ)

set_option backward.isDefEq.respectTransparency.types false in
def reg2 : Pipeline.RegionSeg (pcfgs (F := F)) adm (pdats m ρ) () defs₀ 𝒱₀ L lv 2 :=
  regOf m ρ 2 launch2 (W11 m ρ) (W12 m ρ) (fun c => (body_obligation2 (V11 m ρ) c).loose) (fun _ _ => rfl) (fun _ _ => rfl)
    (fun _ _ => rfl) (fun _ => rfl) (fun _ _ => rfl) (hF2 m ρ) (hrest2 m ρ)

set_option backward.isDefEq.respectTransparency.types false in
def reg3 : Pipeline.RegionSeg (pcfgs (F := F)) adm (pdats m ρ) () defs₀ 𝒱₀ L lv 3 :=
  regOf m ρ 3 launch3 (W13 m ρ) (W14 m ρ) (fun c => (body_obligation3 (V13 m ρ) c).loose) (fun _ _ => rfl) (fun _ _ => rfl)
    (fun _ _ => rfl) (fun _ => rfl) (fun _ _ => rfl) (hF3 m ρ) (hrest3 m ρ)

set_option backward.isDefEq.respectTransparency.types false in
def reg4 : Pipeline.RegionSeg (pcfgs (F := F)) adm (pdats m ρ) () defs₀ 𝒱₀ L lv 4 :=
  regOf m ρ 4 launch4 (W19 m ρ) (W20 m ρ) (fun c => (body_obligation4 (V19 m ρ) c).loose) (fun _ _ => rfl) (fun _ _ => rfl)
    (fun _ _ => rfl) (fun _ => rfl) (fun _ _ => rfl) (hF4 m ρ) (hrest4 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .region (reg2 m ρ),
    .host (hseg hostOps3 hostOps3_sub hostOps3_fresh (W12 m ρ)),
    .region (reg3 m ρ),
    .host (hseg hostOps4 hostOps4_sub hostOps4_fresh (W14 m ρ)),
    .host (hseg hostOps4_1 hostOps4_1_sub hostOps4_1_fresh (W15 m ρ)),
    .host (hseg hostOps4_2 hostOps4_2_sub hostOps4_2_fresh (W16 m ρ)),
    .host (hseg hostOps4_3 hostOps4_3_sub hostOps4_3_fresh (W17 m ρ)),
    .host (hseg hostOps4_4 hostOps4_4_sub hostOps4_4_fresh (W18 m ρ)),
    .region (reg4 m ρ) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun _ h => h)

end Cert.Kernel.Frame

end
-- ==== Proof.K.Claims.lean ====
import proofs.«417774_j30605936951692_3_alg».proof.Proof.K.Run

set_option maxRecDepth 16384

noncomputable section

namespace Cert.Kernel.Frame

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No item of @main writes an argument. -/
theorem run_result : θ_run defs (onTc (τ := τ) (main (F := F))) ⟨m, fun _ => 0, ρ⟩ (fun r => ∀ c : Dev nD,
      r.2.mem ((c.tc : Thread nD τ).loc main_v96) = W20 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => by
    refine ⟨h c _ (mem_uc main_v96 (by decide)), ?_⟩
    and_intros <;> exact (h c _ (mem_uc _ (by decide))).trans (W20_unwritten m ρ c _ (by decide))) (run m ρ)

end Cert.Kernel.Frame

end
-- ==== Proof.KI.Body0.lean ====
import proofs.«417774_j30605936951692_3_alg».proof.Proof.Gen.KernelIdeal.Launch
import proofs.«417774_j30605936951692_3_alg».proof.Proof.Gen.KernelIdeal.Skeleton
import proofs.«417774_j30605936951692_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frame
-- ==== Proof.KI.Body1.lean ====
import proofs.«417774_j30605936951692_3_alg».proof.Proof.Gen.KernelIdeal.Launch
import proofs.«417774_j30605936951692_3_alg».proof.Proof.Gen.KernelIdeal.Skeleton
import proofs.«417774_j30605936951692_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0

abbrev r1_1 : Rect S64x64 := Rect.unit (s := S64x64) ![0, 0] S64x64.size inb_S64x64_S64x64_0_0

def out1_2 (x0 : Vec F S5000x64 .f32) (x1 : Vec F S64x64 .f32) : Vec F S5000x64 .f32 :=
  View.canon [⟨r1_0, k1_pay1 (View.ld x0 r1_0) (View.ld x1 r1_1)⟩]

theorem cover1_2 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in

theorem sound_kernel1 (c : Dev nD) (E : Set ℕ) (i : grid1.Coords)
    (arg1 : Memref sig .tc .vmem S5000x64 .f32) (harg1 : arg1.IsWhole)
    (arg2 : Memref sig .tc .vmem S64x64 .f32) (harg2 : arg2.IsWhole)
    (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Frame
-- ==== Proof.KI.Body2.lean ====
import proofs.«417774_j30605936951692_3_alg».proof.Proof.Gen.KernelIdeal.Launch
import proofs.«417774_j30605936951692_3_alg».proof.Proof.Gen.KernelIdeal.Skeleton
import proofs.«417774_j30605936951692_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x32.size inb_S5000x64_S5000x32_0_0
abbrev r2_1 : Rect S5000x64 := Rect.unit (s := S5000x64) ![0, 32] S5000x32.size inb_S5000x64_S5000x32_0_32

abbrev r2_2 : Rect S5000x2 := Rect.unit (s := S5000x2) ![0, 0] S5000x1.size inb_S5000x2_S5000x1_0_0
abbrev r2_3 : Rect S5000x2 := Rect.unit (s := S5000x2) ![0, 1] S5000x1.size inb_S5000x2_S5000x1_0_1

abbrev r2_4 : Rect S5000x128 := Rect.unit (s := S5000x128) ![0, 32] S5000x32.size inb_S5000x128_S5000x32_0_32
abbrev r2_5 : Rect S5000x128 := Rect.unit (s := S5000x128) ![0, 96] S5000x32.size inb_S5000x128_S5000x32_0_96

abbrev r2_6 : Rect S1x32 := Rect.unit (s := S1x32) ![0, 0] S1x32.size inb_S1x32_S1x32_0_0
abbrev r2_7 : Rect S32x96 := Rect.unit (s := S32x96) ![0, 0] S32x96.size inb_S32x96_S32x96_0_0
abbrev r2_8 : Rect S5000x96 := Rect.unit (s := S5000x96) ![0, 0] S5000x96.size inb_S5000x96_S5000x96_0_0

def out2_6 (x0 : Vec F S5000x64 .f32) (x1 : Vec F S5000x2 .f32) (x2 : Vec F S5000x128 .f32) (x3 : Vec F S1x32 .f32) (x4 : Vec F S1x32 .f32) (x5 : Vec F S32x96 .f32) : Vec F S5000x96 .f32 :=
  View.canon [⟨r2_8, k2_pay1 (View.ld x0 r2_0) (View.ld x0 r2_1) (View.ld x1 r2_2) (View.ld x1 r2_3) (View.ld x2 r2_4) (View.ld x2 r2_5) (View.ld x3 r2_6) (View.ld x4 r2_6) (View.ld x5 r2_7)⟩]

theorem cover2_6 (p0 : Vec F S5000x96 .f32) (y : S5000x96.Idx) :
    ∃ pc ∈ ([⟨r2_8, p0⟩] : List (View.Piece (Elt F) S5000x96 .f32)), y ∈ pc.1.set :=
  View.cover_of_tiled [⟨r2_8, p0⟩] S5000x96.size (by rfl) y

set_option maxHeartbeats 4000000 in

theorem sound_kernel2 (c : Dev nD) (E : Set ℕ) (i : grid2.Coords) (arg1 : Memref sig .tc .vmem S5000x64 .f32) (harg1 : arg1.IsWhole) (arg2 : Memref sig .tc .vmem S5000x2 .f32) (harg2 : arg2.IsWhole) (arg3 : Memref sig .tc .vmem S5000x128 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x96 .f32) (harg6 : arg6.IsWhole) (arg7 : Memref sig .tc .vmem S5000x96 .f32) (harg7 : arg7.IsWhole)
    (x0 : Vec F S5000x64 .f32) (x1 : Vec F S5000x2 .f32) (x2 : Vec F S5000x128 .f32) (x3 : Vec F S1x32 .f32) (x4 : Vec F S1x32 .f32) (x5 : Vec F S32x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__k_layer1_paper_proj2 i arg1 harg1 arg2 harg2 arg3 harg3 arg4 harg4 arg5 harg5 arg6 harg6 arg7 harg7) K := by
  simp only [cc2__k_layer1_paper_proj2_eq_skeleton]; unfold cc2__k_layer1_paper_proj2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Body3.lean ====
import proofs.«417774_j30605936951692_3_alg».proof.Proof.Gen.KernelIdeal.Launch
import proofs.«417774_j30605936951692_3_alg».proof.Proof.Gen.KernelIdeal.Skeleton
import proofs.«417774_j30605936951692_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x32 := Rect.unit (s := S5000x32) ![0, 0] S5000x32.size inb_S5000x32_S5000x32_0_0

abbrev r3_1 : Rect S5000x1 := Rect.unit (s := S5000x1) ![0, 0] S5000x1.size inb_S5000x1_S5000x1_0_0

abbrev r3_2 : Rect S5000x64 := Rect.unit (s := S5000x64) ![0, 32] S5000x32.size inb_S5000x64_S5000x32_0_32

abbrev r3_3 : Rect S1x32 := Rect.unit (s := S1x32) ![0, 0] S1x32.size inb_S1x32_S1x32_0_0

abbrev r3_4 : Rect S32x32 := Rect.unit (s := S32x32) ![0, 0] S32x32.size inb_S32x32_S32x32_0_0

def out3_5 (x0 : Vec F S5000x32 .f32) (x1 : Vec F S5000x1 .f32) (x2 : Vec F S5000x64 .f32) (x3 : Vec F S1x32 .f32)
    (x4 : Vec F S32x32 .f32) : Vec F S5000x32 .f32 :=
  View.canon [⟨r3_0, k3_pay1 (View.ld x0 r3_0) (View.ld x1 r3_1) (View.ld x2 r3_2) (View.ld x3 r3_3) (View.ld x4 r3_4)⟩]

theorem cover3_5 (p0 : Vec F S5000x32 .f32) (y : S5000x32.Idx) :
    ∃ pc ∈ ([⟨r3_0, p0⟩] : List (View.Piece (Elt F) S5000x32 .f32)), y ∈ pc.1.set :=
  View.cover_of_tiled [⟨r3_0, p0⟩] S5000x32.size (by rfl) y

set_option maxHeartbeats 1000000 in

theorem sound_kernel3 (c : Dev nD) (E : Set ℕ) (i : grid3.Coords)
    (arg1 : Memref sig .tc .vmem S5000x32 .f32) (harg1 : arg1.IsWhole) (arg2 : Memref sig .tc .vmem S5000x1 .f32) (harg2 : arg2.IsWhole)
    (arg3 : Memref sig .tc .vmem S5000x64 .f32) (harg3 : arg3.IsWhole) (arg4 : Memref sig .tc .vmem S1x32 .f32) (harg4 : arg4.IsWhole)
    (arg5 : Memref sig .tc .vmem S32x32 .f32) (harg5 : arg5.IsWhole) (arg6 : Memref sig .tc .vmem S5000x32 .f32) (harg6 : arg6.IsWhole)
    (x0 : Vec F S5000x32 .f32) (x1 : Vec F S5000x1 .f32) (x2 : Vec F S5000x64 .f32) (x3 : Vec F S1x32 .f32) (x4 : Vec F S32x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__k_layer1_author_proj2 i arg1 harg1 arg2 harg2 arg3 harg3 arg4 harg4 arg5 harg5 arg6 harg6) K := by
  simp only [cc3__k_layer1_author_proj2_eq_skeleton]; unfold cc3__k_layer1_author_proj2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Body4.lean ====
import proofs.«417774_j30605936951692_3_alg».proof.Proof.Gen.KernelIdeal.Launch
import proofs.«417774_j30605936951692_3_alg».proof.Proof.Gen.KernelIdeal.Skeleton
import proofs.«417774_j30605936951692_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x64 := Rect.unit (s := S5000x64) ![0, 0] S5000x32.size inb_S5000x64_S5000x32_0_0
abbrev r4_1 : Rect S5000x64 := Rect.unit (s := S5000x64) ![0, 32] S5000x32.size inb_S5000x64_S5000x32_0_32

abbrev r4_2 : Rect S5000x2 := Rect.unit (s := S5000x2) ![0, 0] S5000x1.size inb_S5000x2_S5000x1_0_0
abbrev r4_3 : Rect S5000x2 := Rect.unit (s := S5000x2) ![0, 1] S5000x1.size inb_S5000x2_S5000x1_0_1

abbrev r4_4 : Rect S5000x96 := Rect.unit (s := S5000x96) ![0, 32] S5000x32.size inb_S5000x96_S5000x32_0_32
abbrev r4_5 : Rect S5000x96 := Rect.unit (s := S5000x96) ![0, 64] S5000x32.size inb_S5000x96_S5000x32_0_64

abbrev r4_6 : Rect S1x32 := Rect.unit (s := S1x32) ![0, 0] S1x32.size inb_S1x32_S1x32_0_0
abbrev r4_7 : Rect S32x1 := Rect.unit (s := S32x1) ![0, 0] S32x1.size inb_S32x1_S32x1_0_0
abbrev r4_8 : Rect S1x1 := Rect.unit (s := S1x1) ![0, 0] S1x1.size inb_S1x1_S1x1_0_0

abbrev r4_9 : Rect S5000x1 := Rect.unit (s := S5000x1) ![0, 0] S5000x1.size inb_S5000x1_S5000x1_0_0

def out4_7 (x0 : Vec F S5000x64 .f32) (x1 : Vec F S5000x2 .f32) (x2 : Vec F S5000x96 .f32) (x3 : Vec F S1x32 .f32)
    (x4 : Vec F S1x32 .f32) (x5 : Vec F S32x1 .f32) (x6 : Vec F S1x1 .f32) : Vec F S5000x1 .f32 :=
  View.canon [⟨r4_9, k4_pay1 (View.ld x0 r4_0) (View.ld x1 r4_2) (View.ld x0 r4_1) (View.ld x1 r4_3) (View.ld x2 r4_4)
    (View.ld x2 r4_5) (View.ld x3 r4_6) (View.ld x4 r4_6) (View.ld x5 r4_7) (View.ld x6 r4_8)⟩]

theorem cover4_7 (p0 : Vec F S5000x1 .f32) (y : S5000x1.Idx) :
    ∃ pc ∈ ([⟨r4_9, p0⟩] : List (View.Piece (Elt F) S5000x1 .f32)), y ∈ pc.1.set :=
  View.cover_of_tiled [⟨r4_9, p0⟩] S5000x1.size (by rfl) y

set_option maxHeartbeats 4000000 in

theorem sound_kernel4 (c : Dev nD) (E : Set ℕ) (i : grid4.Coords)
    (arg0 : Memref sig .tc .vmem S5000x64 .f32) (harg0 : arg0.IsWhole)
    (arg1 : Memref sig .tc .vmem S5000x2 .f32) (harg1 : arg1.IsWhole)
    (arg2 : Memref sig .tc .vmem S5000x96 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S32x1 .f32) (harg5 : arg5.IsWhole)
    (arg6 : Memref sig .tc .vmem S1x1 .f32) (harg6 : arg6.IsWhole)
    (arg7 : Memref sig .tc .vmem S5000x1 .f32) (harg7 : arg7.IsWhole)
    (x0 : Vec F S5000x64 .f32) (x1 : Vec F S5000x2 .f32) (x2 : Vec F S5000x96 .f32) (x3 : Vec F S1x32 .f32) (x4 : Vec F S1x32 .f32) (x5 : Vec F S32x1 .f32) (x6 : Vec F S1x1 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out4_7 x0 x1 x2 x3 x4 x5 x6)) -∗ K ⟨⟩))
      ⊢ wp frame (wpE (defs₀ (F := F)) Variants.none c none) E (cc4__k_layer2_head i arg0 harg0 arg1 harg1 arg2 harg2 arg3 harg3 arg4 harg4 arg5 harg5 arg6 harg6 arg7 harg7) K := by
  simp only [cc4__k_layer2_head_eq_skeleton]; unfold cc4__k_layer2_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KI.Run.lean ====
import proofs.«417774_j30605936951692_3_alg».proof.Proof.KI.Body0
import proofs.«417774_j30605936951692_3_alg».proof.Proof.KI.Body1
import proofs.«417774_j30605936951692_3_alg».proof.Proof.KI.Body2
import proofs.«417774_j30605936951692_3_alg».proof.Proof.KI.Body3
import proofs.«417774_j30605936951692_3_alg».proof.Proof.KI.Body4
import proofs.«417774_j30605936951692_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 5) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem isIn0 : ∀ w : Fin cfg0.W, Pipeline.arrRef spec0 w ∉ ([main_v1] : List (Ref sig .tc)) → (cfg0.win w).isOut = false := by decide

theorem W2_keep (c : Dev nD) (r : Ref sig .tc) (h : r ∉ ([main_v1] : List (Ref sig .tc))) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (isIn0 w h) _).trans (A_eq0 (V1 m ρ) c w))
  · exact W2_of_ne m ρ c r fun w e => hr ⟨w, e⟩

abbrev W3 : Dev nD → Valuation τ sig (Elt F) := fun c => StableHlo.after hostOps1 (W2 m ρ c)

theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem isIn1 : ∀ w : Fin cfg1.W, Pipeline.arrRef spec1 w ∉ ([main_v5] : List (Ref sig .tc)) → (cfg1.win w).isOut = false := by decide

theorem W4_keep (c : Dev nD) (r : Ref sig .tc) (h : r ∉ ([main_v5] : List (Ref sig .tc))) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (isIn1 w h) _).trans (A_eq1 (V3 m ρ) c w))
  · exact W4_of_ne m ρ c r fun w e => hr ⟨w, e⟩

abbrev W5 : Dev nD → Valuation τ sig (Elt F) := fun c => StableHlo.after hostOps2 (W4 m ρ c)

theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W6 : Dev nD → Valuation τ sig (Elt F) := fun c => StableHlo.after hostOps2_1 (W5 m ρ c)

theorem W6_keep (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h

abbrev W7 : Dev nD → Valuation τ sig (Elt F) := fun c => StableHlo.after hostOps2_2 (W6 m ρ c)

theorem W7_keep (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h

abbrev W8 : Dev nD → Valuation τ sig (Elt F) := fun c => StableHlo.after hostOps2_3 (W7 m ρ c)

theorem W8_keep (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h

abbrev W9 : Dev nD → Valuation τ sig (Elt F) := fun c => StableHlo.after hostOps2_4 (W8 m ρ c)

theorem W9_keep (c : Dev nD) (r : Ref sig .tc) (h : r ∉ hostOps2_4_W) :
    W9 m ρ c (Proc.devRef .tc r) = W8 m ρ c (Proc.devRef .tc r) :=
  StableHlo.after_of_writes_sub hostOps2_4 _ hostOps2_4_writes h

abbrev W10 : Dev nD → Valuation τ sig (Elt F) := fun c => StableHlo.after hostOps2_5 (W9 m ρ c)

theorem W10_keep (c : Dev nD) (r : Ref sig .tc) (h : r ∉ hostOps2_5_W) :
    W10 m ρ c (Proc.devRef .tc r) = W9 m ρ c (Proc.devRef .tc r) :=
  StableHlo.after_of_writes_sub hostOps2_5 _ hostOps2_5_writes h

abbrev W11 : Dev nD → Valuation τ sig (Elt F) := fun c => StableHlo.after hostOps2_6 (W10 m ρ c)

theorem W11_keep (c : Dev nD) (r : Ref sig .tc) (h : r ∉ hostOps2_6_W) :
    W11 m ρ c (Proc.devRef .tc r) = W10 m ρ c (Proc.devRef .tc r) :=
  StableHlo.after_of_writes_sub hostOps2_6 _ hostOps2_6_writes h

abbrev V11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb

abbrev V12 : (c : Dev nD) → (b : Ref sig .tc) → Buf (Elt F) ((c : Thread nD τ).loc b) := fun c b => W12 m ρ c b

theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

theorem isIn2 : ∀ w : Fin cfg2.W, Pipeline.arrRef spec2 w ∉ ([main_v72] : List (Ref sig .tc)) → (cfg2.win w).isOut = false := by decide

theorem W12_keep (c : Dev nD) (r : Ref sig .tc) (h : r ∉ ([main_v72] : List (Ref sig .tc))) :
    W12 m ρ c (Proc.devRef .tc r) = W11 m ρ c (Proc.devRef .tc r) := by
  by_cases hr : ∃ w, Pipeline.arrRef spec2 w = r
  · obtain ⟨w, rfl⟩ := hr
    exact (W12_arr m ρ c w).trans (((dat2 (V11 m ρ) c).arrAt_in w (isIn2 w h) _).trans (A_eq2 (V11 m ρ) c w))
  · exact W12_of_ne m ρ c r fun w e => hr ⟨w, e⟩

abbrev W13 : Dev nD → Valuation τ sig (Elt F) := fun c => StableHlo.after hostOps3 (W12 m ρ c)

theorem W13_keep (c : Dev nD) (r : Ref sig .tc) (h : r ∉ hostOps3_W) :
    W13 m ρ c (Proc.devRef .tc r) = W12 m ρ c (Proc.devRef .tc r) :=
  StableHlo.after_of_writes_sub hostOps3 _ hostOps3_writes h

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb

abbrev V14 : (c : Dev nD) → (b : Ref sig .tc) → Buf (Elt F) ((c : Thread nD τ).loc b) := fun c b => W14 m ρ c b

theorem hF3 (c : Dev nD) (w : Fin cfg3.W) : (dat3 (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

theorem isIn3 : ∀ w : Fin cfg3.W, Pipeline.arrRef spec3 w ∉ ([main_v74] : List (Ref sig .tc)) → (cfg3.win w).isOut = false := by decide

theorem W14_keep (c : Dev nD) (r : Ref sig .tc) (h : r ∉ ([main_v74] : List (Ref sig .tc))) :
    W14 m ρ c (Proc.devRef .tc r) = W13 m ρ c (Proc.devRef .tc r) := by
  by_cases hr : ∃ w, Pipeline.arrRef spec3 w = r
  · obtain ⟨w, rfl⟩ := hr
    exact (W14_arr m ρ c w).trans (((dat3 (V13 m ρ) c).arrAt_in w (isIn3 w h) _).trans (A_eq3 (V13 m ρ) c w))
  · exact W14_of_ne m ρ c r fun w e => hr ⟨w, e⟩

abbrev W15 : Dev nD → Valuation τ sig (Elt F) := fun c => StableHlo.after hostOps4 (W14 m ρ c)

theorem W15_keep (c : Dev nD) (r : Ref sig .tc) (h : r ∉ hostOps4_W) :
    W15 m ρ c (Proc.devRef .tc r) = W14 m ρ c (Proc.devRef .tc r) :=
  StableHlo.after_of_writes_sub hostOps4 _ hostOps4_writes h

abbrev W16 : Dev nD → Valuation τ sig (Elt F) := fun c => StableHlo.after hostOps4_1 (W15 m ρ c)

theorem W16_keep (c : Dev nD) (r : Ref sig .tc) (h : r ∉ hostOps4_1_W) :
    W16 m ρ c (Proc.devRef .tc r) = W15 m ρ c (Proc.devRef .tc r) :=
  StableHlo.after_of_writes_sub hostOps4_1 _ hostOps4_1_writes h

abbrev W17 : Dev nD → Valuation τ sig (Elt F) := fun c => StableHlo.after hostOps4_2 (W16 m ρ c)

theorem W17_keep (c : Dev nD) (r : Ref sig .tc) (h : r ∉ hostOps4_2_W) :
    W17 m ρ c (Proc.devRef .tc r) = W16 m ρ c (Proc.devRef .tc r) :=
  StableHlo.after_of_writes_sub hostOps4_2 _ hostOps4_2_writes h

abbrev W18 : Dev nD → Valuation τ sig (Elt F) := fun c => StableHlo.after hostOps4_3 (W17 m ρ c)

theorem W18_keep (c : Dev nD) (r : Ref sig .tc) (h : r ∉ hostOps4_3_W) :
    W18 m ρ c (Proc.devRef .tc r) = W17 m ρ c (Proc.devRef .tc r) :=
  StableHlo.after_of_writes_sub hostOps4_3 _ hostOps4_3_writes h

abbrev W19 : Dev nD → Valuation τ sig (Elt F) := fun c => StableHlo.after hostOps4_4 (W18 m ρ c)

theorem W19_keep (c : Dev nD) (r : Ref sig .tc) (h : r ∉ hostOps4_4_W) :
    W19 m ρ c (Proc.devRef .tc r) = W18 m ρ c (Proc.devRef .tc r) :=
  StableHlo.after_of_writes_sub hostOps4_4 _ hostOps4_4_writes h

abbrev V19 : (c : Dev nD) → (b : Ref sig .tc) → Buf (Elt F) ((c : Thread nD τ).loc b) := fun c b => W19 m ρ c b

def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb

abbrev V20 : (c : Dev nD) → (b : Ref sig .tc) → Buf (Elt F) ((c : Thread nD τ).loc b) := fun c b => W20 m ρ c b

theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)

theorem isIn4 : ∀ w : Fin cfg4.W, Pipeline.arrRef spec4 w ∉ ([main_v96] : List (Ref sig .tc)) → (cfg4.win w).isOut = false := by decide

theorem W20_keep (c : Dev nD) (r : Ref sig .tc) (h : r ∉ ([main_v96] : List (Ref sig .tc))) :
    W20 m ρ c (Proc.devRef .tc r) = W19 m ρ c (Proc.devRef .tc r) := by
  by_cases hr : ∃ w, Pipeline.arrRef spec4 w = r
  · obtain ⟨w, rfl⟩ := hr
    exact (W20_arr m ρ c w).trans (((dat4 (V19 m ρ) c).arrAt_in w (isIn4 w h) _).trans (A_eq4 (V19 m ρ) c w))
  · exact W20_of_ne m ρ c r fun w e => hr ⟨w, e⟩

/-- Each item of @main leaves a buffer it does not write as it found it. -/
theorem W20_unwritten (c : Dev nD) (r : Ref sig .tc)
    (h : r ∉ hostOps0_W ∧ r ∉ [main_v1] ∧ r ∉ hostOps1_W ∧ r ∉ [main_v5] ∧ r ∉ hostOps2_W ∧ r ∉ hostOps2_1_W
      ∧ r ∉ hostOps2_2_W ∧ r ∉ hostOps2_3_W ∧ r ∉ hostOps2_4_W ∧ r ∉ hostOps2_5_W ∧ r ∉ hostOps2_6_W ∧ r ∉ [main_v72]
      ∧ r ∉ hostOps3_W ∧ r ∉ [main_v74] ∧ r ∉ hostOps4_W ∧ r ∉ hostOps4_1_W ∧ r ∉ hostOps4_2_W ∧ r ∉ hostOps4_3_W
      ∧ r ∉ hostOps4_4_W ∧ r ∉ [main_v96]) :
    W20 m ρ c (Proc.devRef .tc r) = m ((c : Thread nD τ).loc r) :=
  let ⟨h1, h2, h3, h4, h5, h6, h7, h8, h9, h10, h11, h12, h13, h14, h15, h16, h17, h18, h19, h20⟩ := h
  (W20_keep m ρ c r h20).trans <| (W19_keep m ρ c r h19).trans <| (W18_keep m ρ c r h18).trans <|
  (W17_keep m ρ c r h17).trans <| (W16_keep m ρ c r h16).trans <| (W15_keep m ρ c r h15).trans <|
  (W14_keep m ρ c r h14).trans <| (W13_keep m ρ c r h13).trans <| (W12_keep m ρ c r h12).trans <|
  (W11_keep m ρ c r h11).trans <| (W10_keep m ρ c r h10).trans <| (W9_keep m ρ c r h9).trans <|
  (W8_keep m ρ c r h8).trans <| (W7_keep m ρ c r h7).trans <| (W6_keep m ρ c r h6).trans <|
  (W5_keep m ρ c r h5).trans <| (W4_keep m ρ c r h4).trans <| (W3_keep m ρ c r h3).trans <|
  (W2_keep m ρ c r h2).trans <| (W1_keep m ρ c r h1).trans rfl

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V11 m ρ) c
  | ⟨3, _⟩ => fun c => dat3 (V13 m ρ) c
  | ⟨4, _⟩ => fun c => dat4 (V19 m ρ) c

abbrev Tₙ (c : Dev nD) : sProp 𝕄 := iprop(StableHlo.held (c : Thread nD τ) (Pipeline.ucRefs τ sig) (W20 m ρ c) ∗ ∃ r, prngReg c r)

/-- A boundary's contents read at the TensorCore's references. -/
abbrev tcOf (W : Dev nD → Valuation τ sig (Elt F)) : (c : Dev nD) → (b : Ref sig .tc) → Buf (Elt F) ((c : Thread nD τ).loc b) :=
  fun c b => W c b

set_option backward.isDefEq.respectTransparency.types false in
/-- One region of @main as a segment, from the contents at its entry to the contents at its exit. -/
def regOf (p : Fin 5) (launch : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (hΦ : ∀ c i, (pdats m ρ p c).Φ i = Pipeline.ΦA (cfgs p).spec c)
    (hq : ∀ c w, (pdats m ρ p c).q w = fullShare) (howed : ∀ c t, (pdats m ρ p c).owed t = 0)
    (hrec : ∀ c, (pdats m ρ p c).recorded 0 = Set.univ)
    (hA : ∀ c w, (pdats m ρ p c).A w = tcOf Win c (Pipeline.arrRef (cfgs p).spec w))
    (hF : ∀ c w, (pdats m ρ p c).arrAt w (cfgs p).N = tcOf Wout c (Pipeline.arrRef (cfgs p).spec w))
    (hrest : ∀ c b, b ∉ Finset.univ.image (Pipeline.arrRef (cfgs p).spec) → tcOf Wout c b = tcOf Win c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf Win c)
  hentry c := by
    rw [Pipeline.ownSems0_none]
    have hsplit := Pipeline.arrays_of_unscopedBufs (p := p) (pcfgs (F := F)) adm (pdats m ρ) launch.win launch.arr_whole c
      ((pdats m ρ p c).share_full (hq c)) (tcOf Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (tcOf Win c) (tcOf Wout c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (W2 m ρ) (fun c => (body_obligation0 (V1 m ρ) c).loose) (fun _ _ => rfl) (fun _ _ => rfl)
    (fun _ _ => rfl) (fun _ => rfl) (fun _ _ => rfl) (hF0 m ρ) (hrest0 m ρ)

set_option backward.isDefEq.respectTransparency.types false in
def reg1 : Pipeline.RegionSeg (pcfgs (F := F)) adm (pdats m ρ) () defs₀ 𝒱₀ L lv 1 :=
  regOf m ρ 1 launch1 (W3 m ρ) (W4 m ρ) (fun c => (body_obligation1 (V3 m ρ) c).loose) (fun _ _ => rfl) (fun _ _ => rfl)
    (fun _ _ => rfl) (fun _ => rfl) (fun _ _ => rfl) (hF1 m ρ) (hrest1 m ρ)

set_option backward.isDefEq.respectTransparency.types false in
def reg2 : Pipeline.RegionSeg (pcfgs (F := F)) adm (pdats m ρ) () defs₀ 𝒱₀ L lv 2 :=
  regOf m ρ 2 launch2 (W11 m ρ) (W12 m ρ) (fun c => (body_obligation2 (V11 m ρ) c).loose) (fun _ _ => rfl) (fun _ _ => rfl)
    (fun _ _ => rfl) (fun _ => rfl) (fun _ _ => rfl) (hF2 m ρ) (hrest2 m ρ)

set_option backward.isDefEq.respectTransparency.types false in
def reg3 : Pipeline.RegionSeg (pcfgs (F := F)) adm (pdats m ρ) () defs₀ 𝒱₀ L lv 3 :=
  regOf m ρ 3 launch3 (W13 m ρ) (W14 m ρ) (fun c => (body_obligation3 (V13 m ρ) c).loose) (fun _ _ => rfl) (fun _ _ => rfl)
    (fun _ _ => rfl) (fun _ => rfl) (fun _ _ => rfl) (hF3 m ρ) (hrest3 m ρ)

set_option backward.isDefEq.respectTransparency.types false in
def reg4 : Pipeline.RegionSeg (pcfgs (F := F)) adm (pdats m ρ) () defs₀ 𝒱₀ L lv 4 :=
  regOf m ρ 4 launch4 (W19 m ρ) (W20 m ρ) (fun c => (body_obligation4 (V19 m ρ) c).loose) (fun _ _ => rfl) (fun _ _ => rfl)
    (fun _ _ => rfl) (fun _ => rfl) (fun _ _ => rfl) (hF4 m ρ) (hrest4 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .region (reg2 m ρ),
    .host (hseg hostOps3 hostOps3_sub hostOps3_fresh (W12 m ρ)),
    .region (reg3 m ρ),
    .host (hseg hostOps4 hostOps4_sub hostOps4_fresh (W14 m ρ)),
    .host (hseg hostOps4_1 hostOps4_1_sub hostOps4_1_fresh (W15 m ρ)),
    .host (hseg hostOps4_2 hostOps4_2_sub hostOps4_2_fresh (W16 m ρ)),
    .host (hseg hostOps4_3 hostOps4_3_sub hostOps4_3_fresh (W17 m ρ)),
    .host (hseg hostOps4_4 hostOps4_4_sub hostOps4_4_fresh (W18 m ρ)),
    .region (reg4 m ρ) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun _ h => h)

end Cert.KernelIdeal.Frame

end
-- ==== Proof.KI.Claims.lean ====
import proofs.«417774_j30605936951692_3_alg».proof.Proof.KI.Run

set_option maxRecDepth 16384

noncomputable section

namespace Cert.KernelIdeal.Frame

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No item of @main writes an argument. -/
theorem run_result : θ_run defs (onTc (τ := τ) (main (F := F))) ⟨m, fun _ => 0, ρ⟩ (fun r => ∀ c : Dev nD,
      r.2.mem ((c.tc : Thread nD τ).loc main_v96) = W20 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => by
    refine ⟨h c _ (mem_uc main_v96 (by decide)), ?_⟩
    and_intros <;> exact (h c _ (mem_uc _ (by decide))).trans (W20_unwritten m ρ c _ (by decide))) (run m ρ)

end Cert.KernelIdeal.Frame

end
-- ==== Proof.KI.Val0.lean ====
import proofs.«417774_j30605936951692_3_alg».proof.Proof.KI.Body0
import Idealize.ShloMosaic.Lib.StackMember
import Idealize.ShloMosaic.Lib.ValueLayout

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-- A plain product into the zero splat has no accumulator term: entry `(p, q)` is row `p` against column `q`. -/
theorem mm_apply {m k n : ℕ} (x : FVec Ideal ⟨2, ![m, k]⟩ .f32) (w : FVec Ideal ⟨2, ![k, n]⟩ .f32) (p : Fin m) (q : Fin n) :
    matmul (DotDims.plain m k n) none x w (constant ⟨2, ![m, n]⟩ .f32 0x00000000#32) (ix2 p q)
      = ∑ c : Fin k, x (ix2 p c) * w (ix2 c q) := by
  rw [matmul_zero_eq_dotGeneral]
  exact StackMember.dotGeneral_plain_apply none x w p q

/-- A column spread along its unit axis reads its own row's entry. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p 0) :=
  broadcastTo_apply v h (ix2 p c) (ix2 p 0) fun ax => match ax with
    | ⟨0, _⟩ => by
      show p.val = if a = 1 then 0 else p.val
      split
      · have := p.isLt; omega
      · rfl
    | ⟨1, _⟩ => rfl

/-- A unit-stride load at offsets `(o0, o1)` reads entry `(o0 + p, o1 + h)`, however the caller spells that index. -/
theorem ld_apply {Val : EltTy → Type} {e : EltTy} {N0 N1 n0 n1 o0 o1 : ℕ} (X : (⟨2, ![N0, N1]⟩ : Shape).Idx → Val e) (i)
    (p : Fin n0) (h : Fin n1) (k : (⟨2, ![N0, N1]⟩ : Shape).Idx) (h0 : (k 0).val = o0 + p.val) (h1 : (k 1).val = o1 + h.val) :
    View.ld X (Rect.unit (s := ⟨2, ![N0, N1]⟩) ![o0, o1] ![n0, n1] i) (ix2 p h) = X k :=
  congrArg X (Shape.idx_ext₂ (by show o0 + 1 * p.val = _; omega) (by show o1 + 1 * h.val = _; omega))

theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [shapeCast_self]
  exact mm_apply x0 x1 p q

theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

abbrev arr0_0 (c : Dev nD) : S200000x128.Idx → EReal := V c (Pipeline.arrRef spec0 0)
abbrev arr0_1 (c : Dev nD) : S128x128.Idx → EReal := V c (Pipeline.arrRef spec0 1)

/-- The product of the two arrays as the region finds them. -/
def G0 (c : Dev nD) : S200000x128.Idx → EReal :=
  fun i => ∑ k : Fin 128, arr0_0 V c (ix2 (i 0) k) * arr0_1 V c (ix2 k (i 1))

/-- At point `t` the body's result is block `t` of the product: the row block is rows `5000 t …` of the left array, the other block the whole operand. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  have e := idx_facts0 t
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (ix2 p q) = G0 V c (((cfg0.win 2).blk t).view.emb (ix2 p q))
  rw [pay0_apply]
  refine Finset.sum_congr rfl fun k _ => congrArg₂ (· * ·) (congrArg (V c _) (Shape.idx_ext₂ ?_ ?_)) (congrArg (V c _) (Shape.idx_ext₂ ?_ ?_))
  · show win0_0.index t (0 : Fin 2) * 5000 + 1 * p.val = win0_2.index t (0 : Fin 2) * 5000 + 1 * p.val; omega
  · show win0_0.index t (1 : Fin 2) * 128 + 1 * k.val = k.val; omega
  · show win0_1.index t (0 : Fin 2) * 128 + 1 * k.val = k.val; omega
  · show win0_1.index t (1 : Fin 2) * 128 + 1 * q.val = win0_2.index t (1 : Fin 2) * 128 + 1 * q.val; omega

/-- Row `r` lies in the block of point `r / 5000`. -/
theorem cover0 (i : S200000x128.Idx) :
    ∃ t : Fin cfg0.N, (cfg0.win 2).flush t = true ∧ i ∈ ((cfg0.win 2).blk t).view.set := by
  have h0 := idx2_lt0 i
  have h1 := idx2_lt1 i
  obtain ⟨t, ht⟩ : ∃ t : Fin cfg0.N, t.val = (i 0).val / 5000 := ⟨⟨_, by have : cfg0.N = 40 := N_0; omega⟩, rfl⟩
  have e := idx_facts0 t
  refine ⟨t, flush0_2 t, ?_⟩
  show i ∈ ((View.whole main_v1).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem val0 (c : Dev nD) (r : Fin 200000) (j : Fin 128) :
    ((dat0 (F := Ideal) V c).arrAt 2 cfg0.N) (ix2 r j) = ∑ k : Fin 128, arr0_0 V c (ix2 r k) * arr0_1 V c (ix2 k j) :=
  congrFun ((dat0 (F := Ideal) V c).arrAt_eq_of_cover 2 (G0 V c) (fun t _ => flushed0_eq V c t) cover0) (ix2 r j)

end Cert.KernelIdeal.Val
-- ==== Proof.KI.Val1.lean ====
import proofs.«417774_j30605936951692_3_alg».proof.Proof.KI.Body1
import proofs.«417774_j30605936951692_3_alg».proof.Proof.KI.Val0

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open scoped BigOperators

theorem pay1_apply (x0 : Vec Ideal S5000x64 .f32) (x1 : Vec Ideal S64x64 .f32) (p : Fin 5000) (q : Fin 64) :
    k1_pay1 (F := Ideal) x0 x1 (ix2 p q) = ∑ k : Fin 64, x0 (ix2 p k) * x1 (ix2 k q) := by
  unfold k1_pay1
  simp only [shapeCast_self]
  exact mm_apply x0 x1 p q

theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

abbrev arr1_0 (c : Dev nD) : S100000x64.Idx → EReal := V c (Pipeline.arrRef spec1 0)
abbrev arr1_1 (c : Dev nD) : S64x64.Idx → EReal := V c (Pipeline.arrRef spec1 1)

/-- The product of the two arrays as the region finds them. -/
def G1 (c : Dev nD) : S100000x64.Idx → EReal :=
  fun i => ∑ k : Fin 64, arr1_0 V c (ix2 (i 0) k) * arr1_1 V c (ix2 k (i 1))

/-- At point `t` the body's result is block `t` of the product: the row block is rows `5000 t …` of the left array, the other block the whole operand. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  have e := idx_facts1 t
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (ix2 p q) = G1 V c (((cfg1.win 2).blk t).view.emb (ix2 p q))
  rw [pay1_apply]
  refine Finset.sum_congr rfl fun k _ => congrArg₂ (· * ·) (congrArg (V c _) (Shape.idx_ext₂ ?_ ?_)) (congrArg (V c _) (Shape.idx_ext₂ ?_ ?_))
  · show win1_0.index t (0 : Fin 2) * 5000 + 1 * p.val = win1_2.index t (0 : Fin 2) * 5000 + 1 * p.val; omega
  · show win1_0.index t (1 : Fin 2) * 64 + 1 * k.val = k.val; omega
  · show win1_1.index t (0 : Fin 2) * 64 + 1 * k.val = k.val; omega
  · show win1_1.index t (1 : Fin 2) * 64 + 1 * q.val = win1_2.index t (1 : Fin 2) * 64 + 1 * q.val; omega

/-- Row `r` lies in the block of point `r / 5000`. -/
theorem cover1 (i : S100000x64.Idx) :
    ∃ t : Fin cfg1.N, (cfg1.win 2).flush t = true ∧ i ∈ ((cfg1.win 2).blk t).view.set := by
  have h0 := idx2_lt0 i
  have h1 := idx2_lt1 i
  obtain ⟨t, ht⟩ : ∃ t : Fin cfg1.N, t.val = (i 0).val / 5000 := ⟨⟨_, by have : cfg1.N = 20 := N_1; omega⟩, rfl⟩
  have e := idx_facts1 t
  refine ⟨t, flush1_2 t, ?_⟩
  show i ∈ ((View.whole main_v5).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

theorem val1 (c : Dev nD) (r : Fin 100000) (j : Fin 64) :
    ((dat1 (F := Ideal) V c).arrAt 2 cfg1.N) (ix2 r j) = ∑ k : Fin 64, arr1_0 V c (ix2 r k) * arr1_1 V c (ix2 k j) :=
  congrFun ((dat1 (F := Ideal) V c).arrAt_eq_of_cover 2 (G1 V c) (fun t _ => flushed1_eq V c t) cover1) (ix2 r j)

end Cert.KernelIdeal.Val
-- ==== Proof.KI.Val2.lean ====
import proofs.«417774_j30605936951692_3_alg».proof.Proof.KI.Body2
import proofs.«417774_j30605936951692_3_alg».proof.Proof.KI.Val0

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

theorem pay2_apply (v0 v2 : Vec Ideal S5000x32 .f32) (v4 v6 : Vec Ideal S5000x1 .f32) (v8 v10 : Vec Ideal S5000x32 .f32)
    (v16 v21 : Vec Ideal S1x32 .f32) (v29 : Vec Ideal S32x96 .f32) (p : Fin 5000) (q : Fin 96) :
    k2_pay1 v0 v2 v4 v6 v8 v10 v16 v21 v29 (ix2 p q)
      = ∑ h : Fin 32, max ((v0 (ix2 p h) * v4 (ix2 p 0) + v16 (ix2 0 h) + v8 (ix2 p h))
          + (v2 (ix2 p h) * v6 (ix2 p 0) + v21 (ix2 0 h) + v10 (ix2 p h))) 0 * v29 (ix2 h q) := by
  unfold k2_pay1
  refine (mm_apply _ _ p q).trans (Finset.sum_congr rfl fun h _ => ?_)
  simp only [shapeCast_self, maximumf_apply, addf_apply, mulf_apply, broadcast_apply, bcast_col, broadcastTo_1b_ab_apply]
  rw [show (FloatOps.ofBits (F := Ideal) .f32 0x00000000#32 : EReal) = 0 from Ideal.ofBits_zero_f32]

def p1Of (a0 : S200000x64.Idx → EReal) (a1 : S200000x2.Idx → EReal) (a2 : S200000x128.Idx → EReal) (a3 a4 : S1x32.Idx → EReal) (r : Fin 200000) (h : Fin 32) : EReal :=
  max ((a0 (ix2 r ⟨h.val, by have := h.isLt; omega⟩) * a1 (ix2 r 0) + a3 (ix2 0 h) + a2 (ix2 r ⟨32 + h.val, by have := h.isLt; omega⟩))
      + (a0 (ix2 r ⟨32 + h.val, by have := h.isLt; omega⟩) * a1 (ix2 r 1) + a4 (ix2 0 h) + a2 (ix2 r ⟨96 + h.val, by have := h.isLt; omega⟩))) 0

theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

abbrev arr2_0 (c : Dev nD) : S200000x64.Idx → EReal := V c (Pipeline.arrRef spec2 0)
abbrev arr2_1 (c : Dev nD) : S200000x2.Idx → EReal := V c (Pipeline.arrRef spec2 1)
abbrev arr2_2 (c : Dev nD) : S200000x128.Idx → EReal := V c (Pipeline.arrRef spec2 2)
abbrev arr2_3 (c : Dev nD) : S1x32.Idx → EReal := V c (Pipeline.arrRef spec2 3)
abbrev arr2_4 (c : Dev nD) : S1x32.Idx → EReal := V c (Pipeline.arrRef spec2 4)
abbrev arr2_5 (c : Dev nD) : S32x96.Idx → EReal := V c (Pipeline.arrRef spec2 5)

/-- The output as one function of the entry arrays: the hidden activations against the weights. -/
def G2 (c : Dev nD) : S200000x96.Idx → EReal := fun i =>
  ∑ h : Fin 32, p1Of (arr2_0 V c) (arr2_1 V c) (arr2_2 V c) (arr2_3 V c) (arr2_4 V c) (i 0) h * arr2_5 V c (ix2 h (i 1))

theorem iblk2_0_apply (c : Dev nD) (t : Fin cfg2.N) (p : Fin 5000) (k : Fin 64) (R : Fin 200000) (hR : R.val = 5000 * t.val + p.val) :
    (iblk2 V c 0 t : Vec Ideal S5000x64 .f32) (ix2 p k) = arr2_0 V c (ix2 R k) := by
  have e := idx2_facts t
  exact congrArg (arr2_0 V c) (Shape.idx_ext₂ (by show win2_0.index t (0 : Fin 2) * 5000 + 1 * p.val = R.val; omega)
    (by show win2_0.index t (1 : Fin 2) * 64 + 1 * k.val = k.val; omega))

theorem iblk2_1_apply (c : Dev nD) (t : Fin cfg2.N) (p : Fin 5000) (k : Fin 2) (R : Fin 200000) (hR : R.val = 5000 * t.val + p.val) :
    (iblk2 V c 1 t : Vec Ideal S5000x2 .f32) (ix2 p k) = arr2_1 V c (ix2 R k) := by
  have e := idx2_facts t
  exact congrArg (arr2_1 V c) (Shape.idx_ext₂ (by show win2_1.index t (0 : Fin 2) * 5000 + 1 * p.val = R.val; omega)
    (by show win2_1.index t (1 : Fin 2) * 2 + 1 * k.val = k.val; omega))

theorem iblk2_2_apply (c : Dev nD) (t : Fin cfg2.N) (p : Fin 5000) (k : Fin 128) (R : Fin 200000) (hR : R.val = 5000 * t.val + p.val) :
    (iblk2 V c 2 t : Vec Ideal S5000x128 .f32) (ix2 p k) = arr2_2 V c (ix2 R k) := by
  have e := idx2_facts t
  exact congrArg (arr2_2 V c) (Shape.idx_ext₂ (by show win2_2.index t (0 : Fin 2) * 5000 + 1 * p.val = R.val; omega)
    (by show win2_2.index t (1 : Fin 2) * 128 + 1 * k.val = k.val; omega))

theorem iblk2_3_eq (c : Dev nD) (t : Fin cfg2.N) : (iblk2 V c 3 t : Vec Ideal S1x32 .f32) = arr2_3 V c := by
  have e := idx2_facts t
  exact funext fun x => congrArg (arr2_3 V c) (Shape.idx_ext₂ (by show win2_3.index t (0 : Fin 2) * 1 + 1 * (x 0).val = (x 0).val; omega)
    (by show win2_3.index t (1 : Fin 2) * 32 + 1 * (x 1).val = (x 1).val; omega))

theorem iblk2_4_eq (c : Dev nD) (t : Fin cfg2.N) : (iblk2 V c 4 t : Vec Ideal S1x32 .f32) = arr2_4 V c := by
  have e := idx2_facts t
  exact funext fun x => congrArg (arr2_4 V c) (Shape.idx_ext₂ (by show win2_4.index t (0 : Fin 2) * 1 + 1 * (x 0).val = (x 0).val; omega)
    (by show win2_4.index t (1 : Fin 2) * 32 + 1 * (x 1).val = (x 1).val; omega))

theorem iblk2_5_eq (c : Dev nD) (t : Fin cfg2.N) : (iblk2 V c 5 t : Vec Ideal S32x96 .f32) = arr2_5 V c := by
  have e := idx2_facts t
  exact funext fun x => congrArg (arr2_5 V c) (Shape.idx_ext₂ (by show win2_5.index t (0 : Fin 2) * 32 + 1 * (x 0).val = (x 0).val; omega)
    (by show win2_5.index t (1 : Fin 2) * 96 + 1 * (x 1).val = (x 1).val; omega))

/-- At point `t` the body's result is block `t` of `G2`: each load is an entry of an entry array at row `5000 t + p`. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz]
  funext y
  obtain ⟨p, q, rfl⟩ : ∃ (p : Fin 5000) (q : Fin 96), y = ix2 p q := ⟨y 0, y 1, eq_ix2 y⟩
  have e := idx2_facts t
  have hR : ((((cfg2.win 6).blk t).view.emb (ix2 p q)) 0).val = 5000 * t.val + p.val := by
    show win2_6.index t (0 : Fin 2) * 5000 + 1 * p.val = _; omega
  have hQ : (((cfg2.win 6).blk t).view.emb (ix2 p q)) 1 = q :=
    Fin.ext (by show win2_6.index t (1 : Fin 2) * 96 + 1 * q.val = _; omega)
  show k2_pay1 (F := Ideal) _ _ _ _ _ _ _ _ _ (ix2 p q) = G2 V c (((cfg2.win 6).blk t).view.emb (ix2 p q))
  generalize ((cfg2.win 6).blk t).view.emb (ix2 p q) = E at hR hQ ⊢
  have z := fun n : ℕ => (Nat.zero_add n).symm
  rw [pay2_apply]
  unfold G2 p1Of
  rw [hQ]
  refine Finset.sum_congr rfl fun h _ => ?_
  rw [iblk2_3_eq, iblk2_4_eq, iblk2_5_eq, View.ld_unit_zero (S := S1x32) hz, View.ld_unit_zero (S := S1x32) hz, View.ld_unit_zero (S := S32x96) hz,
    ld_apply _ _ p h (ix2 p (⟨h.val, by omega⟩ : Fin 64)) (z _) (z _),
    ld_apply _ _ p h (ix2 p (⟨32 + h.val, by omega⟩ : Fin 64)) (z _) rfl,
    ld_apply (o1 := 0) _ _ p (0 : Fin 1) (ix2 p (0 : Fin 2)) (z _) rfl,
    ld_apply (o1 := 1) _ _ p (0 : Fin 1) (ix2 p (1 : Fin 2)) (z _) rfl,
    ld_apply _ _ p h (ix2 p (⟨32 + h.val, by omega⟩ : Fin 128)) (z _) rfl,
    ld_apply _ _ p h (ix2 p (⟨96 + h.val, by omega⟩ : Fin 128)) (z _) rfl,
    iblk2_0_apply V c t p _ (E 0) hR, iblk2_0_apply V c t p _ (E 0) hR, iblk2_1_apply V c t p _ (E 0) hR,
    iblk2_1_apply V c t p _ (E 0) hR, iblk2_2_apply V c t p _ (E 0) hR, iblk2_2_apply V c t p _ (E 0) hR]

/-- Row `r` lies in the block of point `r / 5000`. -/
theorem cover2 (i : S200000x96.Idx) :
    ∃ t : Fin cfg2.N, (cfg2.win 6).flush t = true ∧ i ∈ ((cfg2.win 6).blk t).view.set := by
  have h0 := idx2_lt0 i
  have h1 := idx2_lt1 i
  obtain ⟨t, ht⟩ : ∃ t : Fin cfg2.N, t.val = (i 0).val / 5000 := ⟨⟨_, by have : cfg2.N = 40 := N_2; omega⟩, rfl⟩
  have e := idx2_facts t
  refine ⟨t, flush2_6 t, ?_⟩
  show i ∈ ((View.whole main_v72).slice (win2_6.rect t)).set
  rw [View.set_slice_whole, Rect.mem_set_unit]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 96 ≤ (i 1).val ∧ (i 1).val < win2_6.index t (1 : Fin 2) * 96 + 96; omega

theorem val2 (c : Dev nD) (r : Fin 200000) (j : Fin 96) :
    ((dat2 (F := Ideal) V c).arrAt 6 cfg2.N : S200000x96.Idx → EReal) (ix2 r j)
      = ∑ h : Fin 32, p1Of (arr2_0 V c) (arr2_1 V c) (arr2_2 V c) (arr2_3 V c) (arr2_4 V c) r h * arr2_5 V c (ix2 h j) :=
  congrFun ((dat2 (F := Ideal) V c).arrAt_eq_of_cover 6 (G2 V c) (fun t _ => flushed2_eq V c t) cover2) (ix2 r j)

end Cert.KernelIdeal.Val
-- ==== Proof.KI.Val3.lean ====
import proofs.«417774_j30605936951692_3_alg».proof.Proof.KI.Body3
import proofs.«417774_j30605936951692_3_alg».proof.Proof.KI.Val0

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev arr3_0 (c : Dev nD) : S100000x32.Idx → EReal := V c (Pipeline.arrRef spec3 0)
abbrev arr3_1 (c : Dev nD) : S100000x1.Idx → EReal := V c (Pipeline.arrRef spec3 1)
abbrev arr3_2 (c : Dev nD) : S100000x64.Idx → EReal := V c (Pipeline.arrRef spec3 2)
abbrev arr3_3 (c : Dev nD) : S1x32.Idx → EReal := V c (Pipeline.arrRef spec3 3)
abbrev arr3_4 (c : Dev nD) : S32x32.Idx → EReal := V c (Pipeline.arrRef spec3 4)

def a1Of (A0 : S100000x32.Idx → EReal) (A1 : S100000x1.Idx → EReal) (A2 : S100000x64.Idx → EReal)
    (A3 : S1x32.Idx → EReal) (r : Fin 100000) (h : Fin 32) : EReal :=
  max (A0 (ix2 r h) * A1 (ix2 r (0 : Fin 1)) + A3 (ix2 (0 : Fin 1) h) + A2 (ix2 r (⟨32 + h.val, by omega⟩ : Fin 64))) 0

/-- The output as one function of the entry arrays: the activations against the weights. -/
def G3 (c : Dev nD) : S100000x32.Idx → EReal := fun i =>
  ∑ h : Fin 32, a1Of (arr3_0 V c) (arr3_1 V c) (arr3_2 V c) (arr3_3 V c) (i 0) h * arr3_4 V c (ix2 h (i 1))

theorem pay3_apply (x0 : Vec Ideal S5000x32 .f32) (x1 : Vec Ideal S5000x1 .f32) (x6 : Vec Ideal S5000x32 .f32)
    (x3 : Vec Ideal S1x32 .f32) (x4 : Vec Ideal S32x32 .f32) (p : Fin 5000) (j : Fin 32) :
    k3_pay1 (F := Ideal) x0 x1 x6 x3 x4 (ix2 p j)
      = ∑ h : Fin 32, max (x0 (ix2 p h) * x1 (ix2 p (0 : Fin 1)) + x3 (ix2 (0 : Fin 1) h) + x6 (ix2 p h)) 0 * x4 (ix2 h j) := by
  unfold k3_pay1
  refine (mm_apply _ _ p j).trans (Finset.sum_congr rfl fun h _ => ?_)
  simp only [shapeCast_self, maximumf_apply, addf_apply, mulf_apply, broadcast_apply, bcast_col, broadcastTo_1b_ab_apply]
  rw [show (FloatOps.ofBits (F := Ideal) .f32 0x00000000#32 : EReal) = 0 from Ideal.ofBits_zero_f32]

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem iblk3_0_apply (c : Dev nD) (t : Fin cfg3.N) (p : Fin 5000) (k : Fin 32) (R : Fin 100000) (hR : R.val = 5000 * t.val + p.val) :
    (iblk3 V c 0 t : Vec Ideal S5000x32 .f32) (ix2 p k) = arr3_0 V c (ix2 R k) := by
  have e := idx_facts3 t
  exact congrArg (arr3_0 V c) (Shape.idx_ext₂ (by show win3_0.index t (0 : Fin 2) * 5000 + 1 * p.val = R.val; omega)
    (by show win3_0.index t (1 : Fin 2) * 32 + 1 * k.val = k.val; omega))

theorem iblk3_1_apply (c : Dev nD) (t : Fin cfg3.N) (p : Fin 5000) (k : Fin 1) (R : Fin 100000) (hR : R.val = 5000 * t.val + p.val) :
    (iblk3 V c 1 t : Vec Ideal S5000x1 .f32) (ix2 p k) = arr3_1 V c (ix2 R k) := by
  have e := idx_facts3 t
  exact congrArg (arr3_1 V c) (Shape.idx_ext₂ (by show win3_1.index t (0 : Fin 2) * 5000 + 1 * p.val = R.val; omega)
    (by show win3_1.index t (1 : Fin 2) * 1 + 1 * k.val = k.val; omega))

theorem iblk3_2_apply (c : Dev nD) (t : Fin cfg3.N) (p : Fin 5000) (k : Fin 64) (R : Fin 100000) (hR : R.val = 5000 * t.val + p.val) :
    (iblk3 V c 2 t : Vec Ideal S5000x64 .f32) (ix2 p k) = arr3_2 V c (ix2 R k) := by
  have e := idx_facts3 t
  exact congrArg (arr3_2 V c) (Shape.idx_ext₂ (by show win3_2.index t (0 : Fin 2) * 5000 + 1 * p.val = R.val; omega)
    (by show win3_2.index t (1 : Fin 2) * 64 + 1 * k.val = k.val; omega))

theorem iblk3_3_eq (c : Dev nD) (t : Fin cfg3.N) : (iblk3 V c 3 t : Vec Ideal S1x32 .f32) = arr3_3 V c := by
  have e := idx_facts3 t
  exact funext fun x => congrArg (arr3_3 V c) (Shape.idx_ext₂ (by show win3_3.index t (0 : Fin 2) * 1 + 1 * (x 0).val = (x 0).val; omega)
    (by show win3_3.index t (1 : Fin 2) * 32 + 1 * (x 1).val = (x 1).val; omega))

theorem iblk3_4_eq (c : Dev nD) (t : Fin cfg3.N) : (iblk3 V c 4 t : Vec Ideal S32x32 .f32) = arr3_4 V c := by
  have e := idx_facts3 t
  exact funext fun x => congrArg (arr3_4 V c) (Shape.idx_ext₂ (by show win3_4.index t (0 : Fin 2) * 32 + 1 * (x 0).val = (x 0).val; omega)
    (by show win3_4.index t (1 : Fin 2) * 32 + 1 * (x 1).val = (x 1).val; omega))

/-- At point `t` the body's result is block `t` of `G3`: each load is an entry of an entry array at row `5000 t + p`. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero hz]
  simp only [View.ld_unit_zero (S := S5000x32) hz, View.ld_unit_zero (S := S5000x1) hz, View.ld_unit_zero (S := S1x32) hz,
    View.ld_unit_zero (S := S32x32) hz]
  funext y
  obtain ⟨p, q, rfl⟩ : ∃ (p : Fin 5000) (q : Fin 32), y = ix2 p q := ⟨y 0, y 1, eq_ix2 y⟩
  have e := idx_facts3 t
  have hR : ((((cfg3.win 5).blk t).view.emb (ix2 p q)) 0).val = 5000 * t.val + p.val := by
    show win3_5.index t (0 : Fin 2) * 5000 + 1 * p.val = _; omega
  have hQ : (((cfg3.win 5).blk t).view.emb (ix2 p q)) 1 = q :=
    Fin.ext (by show win3_5.index t (1 : Fin 2) * 32 + 1 * q.val = _; omega)
  show k3_pay1 (F := Ideal) _ _ _ _ _ (ix2 p q) = G3 V c (((cfg3.win 5).blk t).view.emb (ix2 p q))
  generalize ((cfg3.win 5).blk t).view.emb (ix2 p q) = E at hR hQ ⊢
  rw [pay3_apply]
  unfold G3 a1Of
  rw [hQ]
  refine Finset.sum_congr rfl fun h _ => ?_
  rw [iblk3_3_eq, iblk3_4_eq, ld_apply _ _ p h (ix2 p (⟨32 + h.val, by omega⟩ : Fin 64)) (Nat.zero_add _).symm rfl,
    iblk3_0_apply V c t p _ (E 0) hR, iblk3_1_apply V c t p _ (E 0) hR, iblk3_2_apply V c t p _ (E 0) hR]

/-- Row `r` lies in the block of point `r / 5000`. -/
theorem cover3 (i : S100000x32.Idx) :
    ∃ t : Fin cfg3.N, (cfg3.win 5).flush t = true ∧ i ∈ ((cfg3.win 5).blk t).view.set := by
  have h0 := idx2_lt0 i
  have h1 := idx2_lt1 i
  obtain ⟨t, ht⟩ : ∃ t : Fin cfg3.N, t.val = (i 0).val / 5000 := ⟨⟨_, by have : cfg3.N = 20 := N_3; omega⟩, rfl⟩
  have e := idx_facts3 t
  refine ⟨t, flush3_5 t, ?_⟩
  show i ∈ ((View.whole main_v74).slice (win3_5.rect t)).set
  rw [View.set_slice_whole, Rect.mem_set_unit]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 32 ≤ (i 1).val ∧ (i 1).val < win3_5.index t (1 : Fin 2) * 32 + 32; omega

theorem val3 (c : Dev nD) (r : Fin 100000) (j : Fin 32) :
    ((dat3 (F := Ideal) V c).arrAt 5 cfg3.N : S100000x32.Idx → EReal) (ix2 r j)
      = ∑ h : Fin 32, a1Of (arr3_0 V c) (arr3_1 V c) (arr3_2 V c) (arr3_3 V c) r h * arr3_4 V c (ix2 h j) :=
  congrFun ((dat3 (F := Ideal) V c).arrAt_eq_of_cover 5 (G3 V c) (fun t _ => flushed3_eq V c t) cover3) (ix2 r j)

end Cert.KernelIdeal.Val
-- ==== Proof.KI.Val4.lean ====
import proofs.«417774_j30605936951692_3_alg».proof.Proof.KI.Body4
import proofs.«417774_j30605936951692_3_alg».proof.Proof.KI.Val0

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open scoped BigOperators

theorem pay4_apply (v0 : Vec Ideal S5000x32 .f32) (v2 : Vec Ideal S5000x1 .f32) (v6 : Vec Ideal S5000x32 .f32)
    (v8 : Vec Ideal S5000x1 .f32) (v12 v14 : Vec Ideal S5000x32 .f32) (v16 v21 : Vec Ideal S1x32 .f32)
    (v27 : Vec Ideal S32x1 .f32) (v29 : Vec Ideal S1x1 .f32) (p : Fin 5000) (q : Fin 1) :
    k4_pay1 v0 v2 v6 v8 v12 v14 v16 v21 v27 v29 (ix2 p q)
      = (∑ h : Fin 32, ((v0 (ix2 p h) * v2 (ix2 p 0) + v16 (ix2 0 h) + v12 (ix2 p h))
          + (v6 (ix2 p h) * v8 (ix2 p 0) + v21 (ix2 0 h) + v14 (ix2 p h))) * v27 (ix2 h q)) + v29 (ix2 0 q) := by
  unfold k4_pay1
  simp only [shapeCast_self]
  rw [addf_apply, broadcastTo_1b_ab_apply]
  refine congrArg (· + v29 (ix2 0 q)) ((mm_apply _ _ p q).trans (Finset.sum_congr rfl fun h _ => ?_))
  simp only [addf_apply, mulf_apply, bcast_col, broadcastTo_1b_ab_apply]

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

variable (V : (c : Dev nD) → (b : Ref sig .tc) → Buf (Elt Ideal) ((c : Thread nD τ).loc b))

abbrev arr4_0 (c : Dev nD) : S200000x64.Idx → EReal := V c (Pipeline.arrRef spec4 0)
abbrev arr4_1 (c : Dev nD) : S200000x2.Idx → EReal := V c (Pipeline.arrRef spec4 1)
abbrev arr4_2 (c : Dev nD) : S200000x96.Idx → EReal := V c (Pipeline.arrRef spec4 2)
abbrev arr4_3 (c : Dev nD) : S1x32.Idx → EReal := V c (Pipeline.arrRef spec4 3)
abbrev arr4_4 (c : Dev nD) : S1x32.Idx → EReal := V c (Pipeline.arrRef spec4 4)
abbrev arr4_5 (c : Dev nD) : S32x1.Idx → EReal := V c (Pipeline.arrRef spec4 5)
abbrev arr4_6 (c : Dev nD) : S1x1.Idx → EReal := V c (Pipeline.arrRef spec4 6)

def p2Of (a0 : S200000x64.Idx → EReal) (a1 : S200000x2.Idx → EReal) (a2 : S200000x96.Idx → EReal)
    (a3 a4 : S1x32.Idx → EReal) (r : Fin 200000) (h : Fin 32) : EReal :=
  (a0 (ix2 r ⟨h.val, by have := h.isLt; omega⟩) * a1 (ix2 r 0) + a3 (ix2 0 h) + a2 (ix2 r ⟨32 + h.val, by have := h.isLt; omega⟩))
    + (a0 (ix2 r ⟨32 + h.val, by have := h.isLt; omega⟩) * a1 (ix2 r 1) + a4 (ix2 0 h) + a2 (ix2 r ⟨64 + h.val, by have := h.isLt; omega⟩))

/-- The output as one function of the entry arrays: the two halves added, against the head weight, plus the head bias. -/
def G4 (c : Dev nD) : S200000x1.Idx → EReal := fun i =>
  (∑ h : Fin 32, p2Of (arr4_0 V c) (arr4_1 V c) (arr4_2 V c) (arr4_3 V c) (arr4_4 V c) (i 0) h * arr4_5 V c (ix2 h (i 1)))
    + arr4_6 V c (ix2 0 (i 1))

theorem iblk4_0_apply (c : Dev nD) (t : Fin cfg4.N) (p : Fin 5000) (k : Fin 64) (R : Fin 200000) (hR : R.val = 5000 * t.val + p.val) :
    (iblk4 V c 0 t : Vec Ideal S5000x64 .f32) (ix2 p k) = arr4_0 V c (ix2 R k) := by
  have e := idx_facts4 t
  exact congrArg (arr4_0 V c) (Shape.idx_ext₂ (by show win4_0.index t (0 : Fin 2) * 5000 + 1 * p.val = R.val; omega)
    (by show win4_0.index t (1 : Fin 2) * 64 + 1 * k.val = k.val; omega))

theorem iblk4_1_apply (c : Dev nD) (t : Fin cfg4.N) (p : Fin 5000) (k : Fin 2) (R : Fin 200000) (hR : R.val = 5000 * t.val + p.val) :
    (iblk4 V c 1 t : Vec Ideal S5000x2 .f32) (ix2 p k) = arr4_1 V c (ix2 R k) := by
  have e := idx_facts4 t
  exact congrArg (arr4_1 V c) (Shape.idx_ext₂ (by show win4_1.index t (0 : Fin 2) * 5000 + 1 * p.val = R.val; omega)
    (by show win4_1.index t (1 : Fin 2) * 2 + 1 * k.val = k.val; omega))

theorem iblk4_2_apply (c : Dev nD) (t : Fin cfg4.N) (p : Fin 5000) (k : Fin 96) (R : Fin 200000) (hR : R.val = 5000 * t.val + p.val) :
    (iblk4 V c 2 t : Vec Ideal S5000x96 .f32) (ix2 p k) = arr4_2 V c (ix2 R k) := by
  have e := idx_facts4 t
  exact congrArg (arr4_2 V c) (Shape.idx_ext₂ (by show win4_2.index t (0 : Fin 2) * 5000 + 1 * p.val = R.val; omega)
    (by show win4_2.index t (1 : Fin 2) * 96 + 1 * k.val = k.val; omega))

theorem iblk4_3_eq (c : Dev nD) (t : Fin cfg4.N) : (iblk4 V c 3 t : Vec Ideal S1x32 .f32) = arr4_3 V c := by
  have e := idx_facts4 t
  exact funext fun x => congrArg (arr4_3 V c) (Shape.idx_ext₂ (by show win4_3.index t (0 : Fin 2) * 1 + 1 * (x 0).val = (x 0).val; omega)
    (by show win4_3.index t (1 : Fin 2) * 32 + 1 * (x 1).val = (x 1).val; omega))

theorem iblk4_4_eq (c : Dev nD) (t : Fin cfg4.N) : (iblk4 V c 4 t : Vec Ideal S1x32 .f32) = arr4_4 V c := by
  have e := idx_facts4 t
  exact funext fun x => congrArg (arr4_4 V c) (Shape.idx_ext₂ (by show win4_4.index t (0 : Fin 2) * 1 + 1 * (x 0).val = (x 0).val; omega)
    (by show win4_4.index t (1 : Fin 2) * 32 + 1 * (x 1).val = (x 1).val; omega))

theorem iblk4_5_eq (c : Dev nD) (t : Fin cfg4.N) : (iblk4 V c 5 t : Vec Ideal S32x1 .f32) = arr4_5 V c := by
  have e := idx_facts4 t
  exact funext fun x => congrArg (arr4_5 V c) (Shape.idx_ext₂ (by show win4_5.index t (0 : Fin 2) * 32 + 1 * (x 0).val = (x 0).val; omega)
    (by show win4_5.index t (1 : Fin 2) * 1 + 1 * (x 1).val = (x 1).val; omega))

theorem iblk4_6_eq (c : Dev nD) (t : Fin cfg4.N) : (iblk4 V c 6 t : Vec Ideal S1x1 .f32) = arr4_6 V c := by
  have e := idx_facts4 t
  exact funext fun x => congrArg (arr4_6 V c) (Shape.idx_ext₂ (by show win4_6.index t (0 : Fin 2) * 1 + 1 * (x 0).val = (x 0).val; omega)
    (by show win4_6.index t (1 : Fin 2) * 1 + 1 * (x 1).val = (x 1).val; omega))

/-- At point `t` the body's result is block `t` of `G4`: each load is an entry of an entry array at row `5000 t + p`. -/
theorem flushed4_eq (c : Dev nD) (t : Fin cfg4.N) :
    (dat4 (F := Ideal) V c).flushed 7 t = ((cfg4.win 7).blk t).view.read (Elt Ideal) (G4 V c) := by
  show (cfg4.win 7).cut (grid4.coords t) ((dat4 (F := Ideal) V c).after 7 t) = _
  rw [after4_7]
  unfold out4_7
  rw [View.canon_unit_zero hz]
  funext y
  obtain ⟨p, q, rfl⟩ : ∃ (p : Fin 5000) (q : Fin 1), y = ix2 p q := ⟨y 0, y 1, eq_ix2 y⟩
  have e := idx_facts4 t
  have hR : ((((cfg4.win 7).blk t).view.emb (ix2 p q)) 0).val = 5000 * t.val + p.val := by
    show win4_7.index t (0 : Fin 2) * 5000 + 1 * p.val = _; omega
  have hQ : (((cfg4.win 7).blk t).view.emb (ix2 p q)) 1 = q :=
    Fin.ext (by show win4_7.index t (1 : Fin 2) * 1 + 1 * q.val = _; omega)
  show k4_pay1 (F := Ideal) _ _ _ _ _ _ _ _ _ _ (ix2 p q) = G4 V c (((cfg4.win 7).blk t).view.emb (ix2 p q))
  generalize ((cfg4.win 7).blk t).view.emb (ix2 p q) = E at hR hQ ⊢
  have z := fun n : ℕ => (Nat.zero_add n).symm
  rw [pay4_apply]
  unfold G4 p2Of
  rw [hQ, iblk4_3_eq, iblk4_4_eq, iblk4_5_eq, iblk4_6_eq, View.ld_unit_zero (S := S1x32) hz, View.ld_unit_zero (S := S1x32) hz, View.ld_unit_zero (S := S32x1) hz,
    View.ld_unit_zero (S := S1x1) hz]
  refine congrArg (· + _) (Finset.sum_congr rfl fun h _ => ?_)
  rw [ld_apply _ _ p h (ix2 p (⟨h.val, by omega⟩ : Fin 64)) (z _) (z _),
    ld_apply _ _ p h (ix2 p (⟨32 + h.val, by omega⟩ : Fin 64)) (z _) rfl,
    ld_apply (o1 := 0) _ _ p (0 : Fin 1) (ix2 p (0 : Fin 2)) (z _) rfl,
    ld_apply (o1 := 1) _ _ p (0 : Fin 1) (ix2 p (1 : Fin 2)) (z _) rfl,
    ld_apply _ _ p h (ix2 p (⟨32 + h.val, by omega⟩ : Fin 96)) (z _) rfl,
    ld_apply _ _ p h (ix2 p (⟨64 + h.val, by omega⟩ : Fin 96)) (z _) rfl,
    iblk4_0_apply V c t p _ (E 0) hR, iblk4_0_apply V c t p _ (E 0) hR, iblk4_1_apply V c t p _ (E 0) hR,
    iblk4_1_apply V c t p _ (E 0) hR, iblk4_2_apply V c t p _ (E 0) hR, iblk4_2_apply V c t p _ (E 0) hR]

/-- Row `r` lies in the block of point `r / 5000`. -/
theorem cover4 (i : S200000x1.Idx) :
    ∃ t : Fin cfg4.N, (cfg4.win 7).flush t = true ∧ i ∈ ((cfg4.win 7).blk t).view.set := by
  have h0 := idx2_lt0 i
  have h1 := idx2_lt1 i
  obtain ⟨t, ht⟩ : ∃ t : Fin cfg4.N, t.val = (i 0).val / 5000 := ⟨⟨_, by have : cfg4.N = 40 := N_4; omega⟩, rfl⟩
  have e := idx_facts4 t
  refine ⟨t, flush4_7 t, ?_⟩
  show i ∈ ((View.whole main_v96).slice (win4_7.rect t)).set
  rw [View.set_slice_whole, Rect.mem_set_unit]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 1 ≤ (i 1).val ∧ (i 1).val < win4_7.index t (1 : Fin 2) * 1 + 1; omega

theorem val4 (c : Dev nD) (r : Fin 200000) (j : Fin 1) :
    ((dat4 (F := Ideal) V c).arrAt 7 cfg4.N) (ix2 r j)
      = (∑ h : Fin 32, p2Of (arr4_0 V c) (arr4_1 V c) (arr4_2 V c) (arr4_3 V c) (arr4_4 V c) r h * arr4_5 V c (ix2 h j))
        + arr4_6 V c (ix2 0 j) :=
  congrFun ((dat4 (F := Ideal) V c).arrAt_eq_of_cover 7 (G4 V c) (fun t _ => flushed4_eq V c t) cover4) (ix2 r j)

end Cert.KernelIdeal.Val
-- ==== Proof.LibRows.lean ====
import Idealize.ShloMosaic.PureOps.Ideal
import Idealize.ShloMosaic.Lib.ValueIdx

noncomputable section

namespace Cert.LibRows

open Idealize.ShloMosaic Idealize.ShloMosaic.ValueIdx

def clampRow (N : Nat) (hN : 0 < N) {w : Nat} (b : BitVec w) : Fin N := ⟨min b.toInt.toNat (N - 1), by omega⟩

theorem gather_rows_apply {α : Type} {N E K w : Nat} (hN : 0 < N)
    (d : GatherDims ⟨2, ![N, K]⟩ ⟨2, ![E, 1]⟩ ⟨2, ![E, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, K]⟩ : Shape).Idx → α) (idx : IVec ⟨2, ![E, 1]⟩ w) (e : Fin E) (q : Fin K) :
    Host.gather d x idx (ix2 e q) = x (ix2 (clampRow N hN (idx (ix2 e (0 : Fin 1)))) q) := by
  unfold Host.gather
  congr 1
  funext a
  have hb : ∀ a : Fin 2, a ∉ d.operandBatchingDims := fun a => by rw [hob]; exact List.not_mem_nil

  have hbd : d.batchDims = [0] := by
    show Shape.kept _ d.offsetDims = [0]
    rw [hoff]; rfl
  have hbm : ∀ a ∈ d.batchDims, a = 0 := fun a ha => by
    rw [hbd] at ha; exact List.mem_singleton.mp ha
  have hom : ∀ a ∈ d.offsetDims, a = 1 := fun a ha => by
    rw [hoff] at ha; exact List.mem_singleton.mp ha
  have hb0 : ∀ (i : Nat) (hi : i < d.batchDims.length), d.batchDims[i] = 0 := fun i hi =>
    hbm _ (List.getElem_mem hi)
  have ho1 : ∀ (i : Nat) (hi : i < d.offsetDims.length), d.offsetDims[i] = 1 := fun i hi =>
    hom _ (List.getElem_mem hi)
  have c0 : ∀ a : Fin 2, a = 0 → ((ix2 e q) a).val = e.val := by rintro _ rfl; rfl
  have c1 : ∀ a : Fin 2, a = 1 → ((ix2 e q) a).val = q.val := by rintro _ rfl; rfl
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = _
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact c0 _ (hb0 _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start GatherDims.offCoord
    rw [dif_neg hm, dif_pos hk, Nat.zero_add]
    exact c1 _ (ho1 _ _)

theorem scatter_rows_result {N E K w : Nat}
    (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hivd : d.indexVectorDim = 1)
    (idx : IVec ⟨2, ![E, 1]⟩ w) (e : Fin E) (q : Fin K) (r : Fin N) (q' : Fin K) :
    d.resultIdx? (ix2 e q) idx = some (ix2 r q') ↔ ((idx (ix2 e (0 : Fin 1))).toInt = (r.val : Int) ∧ q = q') := by
  have hin0 : (0 : Fin 2) ∈ d.scatterDimsToOperandDims := by rw [hsd]; exact List.mem_singleton.mpr rfl
  have hnin1 : (1 : Fin 2) ∉ d.scatterDimsToOperandDims := by rw [hsd]; simp
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept]

  have hus : d.uScatter = [0] := by
    show Shape.kept _ d.updateWindowDims = [0]
    rw [huw]; rfl
  have husm : ∀ a ∈ d.uScatter, a = 0 := fun a ha => by rw [hus] at ha; exact List.mem_singleton.mp ha
  have huwm : ∀ a ∈ d.updateWindowDims, a = 1 := fun a ha => by rw [huw] at ha; exact List.mem_singleton.mp ha
  have c0 : ∀ a : Fin 2, a = 0 → ((ix2 e q) a).val = e.val := by rintro _ rfl; rfl
  have c1 : ∀ a : Fin 2, a = 1 → ((ix2 e q) a).val = q.val := by rintro _ rfl; rfl

  have hs0 : d.start (ix2 e q) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _ (husm _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e q) 0 = 0 := by
    unfold ScatterDims.window; rw [dif_neg hk0]

  have hs1 : d.start (ix2 e q) idx 1 = 0 := by
    unfold ScatterDims.start; rw [dif_neg hnin1]
  have hw1 : d.window (ix2 e q) 1 = q.val := by
    unfold ScatterDims.window; rw [dif_pos hk1]
    exact c1 _ (huwm _ (List.getElem_mem _))
  have hr := r.isLt
  have hq := q.isLt
  have hq' := q'.isLt
  unfold ScatterDims.resultIdx?
  split
  · next h =>
    rw [Option.some.injEq]
    constructor
    · intro heq
      have h0 : (d.start (ix2 e q) idx 0 + d.window (ix2 e q) 0).toNat = r.val := congrArg (fun f => (f 0).val) heq
      have h1 : (d.start (ix2 e q) idx 1 + d.window (ix2 e q) 1).toNat = q'.val := congrArg (fun f => (f 1).val) heq
      have hh0 := (h 0).1
      rw [hs0, hw0] at h0 hh0
      rw [hs1, hw1] at h1
      exact ⟨by omega, Fin.ext (by omega)⟩
    · rintro ⟨hr', hqq⟩
      funext a
      match a with
      | ⟨0, _⟩ =>
        apply Fin.ext
        show (d.start (ix2 e q) idx 0 + d.window (ix2 e q) 0).toNat = r.val
        rw [hs0, hw0, hr']; omega
      | ⟨1, _⟩ =>
        apply Fin.ext
        show (d.start (ix2 e q) idx 1 + d.window (ix2 e q) 1).toNat = q'.val
        rw [hs1, hw1, hqq]; omega
  · next h =>
    constructor
    · intro heq; exact absurd heq (by simp)
    · rintro ⟨hr', hqq⟩
      exfalso; apply h
      intro a
      match a with
      | ⟨0, _⟩ =>
        show 0 ≤ d.start (ix2 e q) idx 0 + d.window (ix2 e q) 0 ∧ d.start (ix2 e q) idx 0 + d.window (ix2 e q) 0 < (N : Int)
        rw [hs0, hw0, hr']; omega
      | ⟨1, _⟩ =>
        show 0 ≤ d.start (ix2 e q) idx 1 + d.window (ix2 e q) 1 ∧ d.start (ix2 e q) idx 1 + d.window (ix2 e q) 1 < (K : Int)
        rw [hs1, hw1]; omega

end Cert.LibRows

end
-- ==== Proof.Spec.lean ====
import Idealize.ShloMosaic.PureOps.Ideal
import Idealize.ShloMosaic.Lib.ValueIdx
import proofs.«417774_j30605936951692_3_alg».proof.Proof.LibRows

noncomputable section

namespace Cert.Spec

open Idealize.ShloMosaic Idealize.ShloMosaic.ValueIdx

def wrap (n b : BitVec 32) : BitVec 32 := Scalar.select (IntOp.cmpi .slt b 0#32) (IntOp.addi b n) b

def srcRow (N : Nat) (hN : 0 < N) (b : BitVec 32) : Fin N :=
  Cert.LibRows.clampRow N hN (wrap (BitVec.ofNat 32 N) b)

def lands {E : Nat} (N : Nat) (dst : Fin E → BitVec 32) (r : Fin N) : Finset (Fin E) :=
  Finset.univ.filter fun e => (dst e).toInt = (r.val : Int)

def segsum {E M N K : Nat} (T : Fin M → Fin K → EReal) (src : Fin E → Fin M) (dst : Fin E → BitVec 32)
    (r : Fin N) (k : Fin K) : EReal :=
  ∑ e ∈ lands N dst r, T (src e) k

def deg {E : Nat} (N : Nat) (dst : Fin E → BitVec 32) (r : Fin N) : EReal :=
  (((lands N dst r).card : ℝ) : EReal)

def mm {N K H : Nat} (A : Fin N → Fin K → EReal) (W : Fin K → Fin H → EReal) (r : Fin N) (h : Fin H) : EReal :=
  ∑ k, A r k * W k h

def sageR {E M N K Kd H : Nat} (xs : Fin M → Fin K → EReal) (xd : Fin N → Fin Kd → EReal)
    (src : Fin E → Fin M) (dst : Fin E → BitVec 32)
    (Wl : Fin K → Fin H → EReal) (bl : Fin H → EReal) (Wr : Fin Kd → Fin H → EReal) (r : Fin N) (h : Fin H) : EReal :=
  mm (fun r k => Ideal.div (segsum xs src dst r k) (max (deg N dst r) 1)) Wl r h + bl h + mm xd Wr r h

def sageK {E M N K Kd H : Nat} (xs : Fin M → Fin K → EReal) (xd : Fin N → Fin Kd → EReal)
    (src : Fin E → Fin M) (dst : Fin E → BitVec 32)
    (Wl : Fin K → Fin H → EReal) (bl : Fin H → EReal) (Wr : Fin Kd → Fin H → EReal) (r : Fin N) (h : Fin H) : EReal :=
  segsum (mm xs Wl) src dst r h * Ideal.div 1 (max (deg N dst r) 1) + bl h + mm xd Wr r h

structure Inputs where
  xp : Fin 200000 → Fin 128 → EReal
  xa : Fin 100000 → Fin 64 → EReal
  sc : Fin 1000000 → Fin 200000
  dc : Fin 1000000 → BitVec 32
  sw : Fin 1000000 → Fin 100000
  dw : Fin 1000000 → BitVec 32
  sr : Fin 1000000 → Fin 200000
  dr : Fin 1000000 → BitVec 32
  W1lc : Fin 128 → Fin 32 → EReal
  b1c : Fin 32 → EReal
  W1rc : Fin 128 → Fin 32 → EReal
  W1lw : Fin 64 → Fin 32 → EReal
  b1w : Fin 32 → EReal
  W1rw : Fin 128 → Fin 32 → EReal
  W1lr : Fin 128 → Fin 32 → EReal
  b1r : Fin 32 → EReal
  W1rr : Fin 64 → Fin 32 → EReal
  W2lc : Fin 32 → Fin 32 → EReal
  b2c : Fin 32 → EReal
  W2rc : Fin 32 → Fin 32 → EReal
  W2lw : Fin 32 → Fin 32 → EReal
  b2w : Fin 32 → EReal
  W2rw : Fin 32 → Fin 32 → EReal
  Wh : Fin 32 → Fin 1 → EReal
  bh : Fin 1 → EReal

structure Inputs.Real (I : Inputs) : Prop where
  xp : ∀ r k, ∃ v : ℝ, I.xp r k = (v : EReal)
  xa : ∀ r k, ∃ v : ℝ, I.xa r k = (v : EReal)
  W1lc : ∀ k h, ∃ v : ℝ, I.W1lc k h = (v : EReal)
  b1c : ∀ h, ∃ v : ℝ, I.b1c h = (v : EReal)
  W1rc : ∀ k h, ∃ v : ℝ, I.W1rc k h = (v : EReal)
  W1lw : ∀ k h, ∃ v : ℝ, I.W1lw k h = (v : EReal)
  b1w : ∀ h, ∃ v : ℝ, I.b1w h = (v : EReal)
  W1rw : ∀ k h, ∃ v : ℝ, I.W1rw k h = (v : EReal)
  W1lr : ∀ k h, ∃ v : ℝ, I.W1lr k h = (v : EReal)
  b1r : ∀ h, ∃ v : ℝ, I.b1r h = (v : EReal)
  W1rr : ∀ k h, ∃ v : ℝ, I.W1rr k h = (v : EReal)
  W2lc : ∀ k h, ∃ v : ℝ, I.W2lc k h = (v : EReal)
  b2c : ∀ h, ∃ v : ℝ, I.b2c h = (v : EReal)
  W2rc : ∀ k h, ∃ v : ℝ, I.W2rc k h = (v : EReal)
  W2lw : ∀ k h, ∃ v : ℝ, I.W2lw k h = (v : EReal)
  b2w : ∀ h, ∃ v : ℝ, I.b2w h = (v : EReal)
  W2rw : ∀ k h, ∃ v : ℝ, I.W2rw k h = (v : EReal)
  Wh : ∀ k j, ∃ v : ℝ, I.Wh k j = (v : EReal)
  bh : ∀ j, ∃ v : ℝ, I.bh j = (v : EReal)

namespace Inputs

variable (I : Inputs)

def p1R (r : Fin 200000) (h : Fin 32) : EReal :=
  max (sageR I.xp I.xp I.sc I.dc I.W1lc I.b1c I.W1rc r h + sageR I.xa I.xp I.sw I.dw I.W1lw I.b1w I.W1rw r h) 0

def a1R (r : Fin 100000) (h : Fin 32) : EReal :=
  max (sageR I.xp I.xa I.sr I.dr I.W1lr I.b1r I.W1rr r h) 0

def p2R (r : Fin 200000) (h : Fin 32) : EReal :=
  sageR I.p1R I.p1R I.sc I.dc I.W2lc I.b2c I.W2rc r h + sageR I.a1R I.p1R I.sw I.dw I.W2lw I.b2w I.W2rw r h

def outR (r : Fin 200000) (j : Fin 1) : EReal := mm I.p2R I.Wh r j + I.bh j

def p1K (r : Fin 200000) (h : Fin 32) : EReal :=
  max (sageK I.xp I.xp I.sc I.dc I.W1lc I.b1c I.W1rc r h + sageK I.xa I.xp I.sw I.dw I.W1lw I.b1w I.W1rw r h) 0
def a1K (r : Fin 100000) (h : Fin 32) : EReal :=
  max (sageK I.xp I.xa I.sr I.dr I.W1lr I.b1r I.W1rr r h) 0
def p2K (r : Fin 200000) (h : Fin 32) : EReal :=
  sageK I.p1K I.p1K I.sc I.dc I.W2lc I.b2c I.W2rc r h + sageK I.a1K I.p1K I.sw I.dw I.W2lw I.b2w I.W2rw r h
def outK (r : Fin 200000) (j : Fin 1) : EReal := mm I.p2K I.Wh r j + I.bh j

end Inputs

def ofArgs (a0 : (⟨2, ![200000, 128]⟩ : Shape).Idx → EReal) (a1 : (⟨2, ![100000, 64]⟩ : Shape).Idx → EReal)
    (a2 a3 a4 : IVec ⟨2, ![2, 1000000]⟩ 32)
    (a5 : (⟨2, ![128, 32]⟩ : Shape).Idx → EReal) (a6 : (⟨1, ![32]⟩ : Shape).Idx → EReal) (a7 : (⟨2, ![128, 32]⟩ : Shape).Idx → EReal)
    (a8 : (⟨2, ![64, 32]⟩ : Shape).Idx → EReal) (a9 : (⟨1, ![32]⟩ : Shape).Idx → EReal) (a10 : (⟨2, ![128, 32]⟩ : Shape).Idx → EReal)
    (a11 : (⟨2, ![128, 32]⟩ : Shape).Idx → EReal) (a12 : (⟨1, ![32]⟩ : Shape).Idx → EReal) (a13 : (⟨2, ![64, 32]⟩ : Shape).Idx → EReal)
    (a14 : (⟨2, ![32, 32]⟩ : Shape).Idx → EReal) (a15 : (⟨1, ![32]⟩ : Shape).Idx → EReal) (a16 : (⟨2, ![32, 32]⟩ : Shape).Idx → EReal)
    (a17 : (⟨2, ![32, 32]⟩ : Shape).Idx → EReal) (a18 : (⟨1, ![32]⟩ : Shape).Idx → EReal) (a19 : (⟨2, ![32, 32]⟩ : Shape).Idx → EReal)
    (a23 : (⟨2, ![32, 1]⟩ : Shape).Idx → EReal) (a24 : (⟨1, ![1]⟩ : Shape).Idx → EReal) : Inputs where
  xp r k := a0 (ix2 r k)
  xa r k := a1 (ix2 r k)
  sc e := srcRow 200000 (by decide) (a2 (ix2 (0 : Fin 2) e))
  dc e := a2 (ix2 (1 : Fin 2) e)
  sw e := srcRow 100000 (by decide) (a3 (ix2 (0 : Fin 2) e))
  dw e := a3 (ix2 (1 : Fin 2) e)
  sr e := srcRow 200000 (by decide) (a4 (ix2 (0 : Fin 2) e))
  dr e := a4 (ix2 (1 : Fin 2) e)
  W1lc k h := a5 (ix2 k h)
  b1c h := a6 (ix1 h)
  W1rc k h := a7 (ix2 k h)
  W1lw k h := a8 (ix2 k h)
  b1w h := a9 (ix1 h)
  W1rw k h := a10 (ix2 k h)
  W1lr k h := a11 (ix2 k h)
  b1r h := a12 (ix1 h)
  W1rr k h := a13 (ix2 k h)
  W2lc k h := a14 (ix2 k h)
  b2c h := a15 (ix1 h)
  W2rc k h := a16 (ix2 k h)
  W2lw k h := a17 (ix2 k h)
  b2w h := a18 (ix1 h)
  W2rw k h := a19 (ix2 k h)
  Wh k j := a23 (ix2 k j)
  bh j := a24 (ix1 j)

end Cert.Spec

end
-- ==== Proof.KI.HostLayout.lean ====
import proofs.«417774_j30605936951692_3_alg».proof.Proof.Gen.KernelIdeal.Launch
import proofs.«417774_j30605936951692_3_alg».proof.Proof.Spec
import proofs.«417774_j30605936951692_3_alg».proof.Proof.LibRows
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.TcCoe Idealize.ShloMosaic.ValueIdx Idealize.SL.Sem

variable (W : Valuation τ sig (Elt Ideal))

abbrev rd_arg2 : IVec S2x1000000 32 := W (Proc.devRef .tc main_arg2)
abbrev rd_arg3 : IVec S2x1000000 32 := W (Proc.devRef .tc main_arg3)
abbrev rd_arg4 : IVec S2x1000000 32 := W (Proc.devRef .tc main_arg4)
abbrev rd_arg5 : S128x32.Idx → EReal := W (Proc.devRef .tc main_arg5)
abbrev rd_arg6 : S32.Idx → EReal := W (Proc.devRef .tc main_arg6)
abbrev rd_arg7 : S128x32.Idx → EReal := W (Proc.devRef .tc main_arg7)
abbrev rd_arg8 : S64x32.Idx → EReal := W (Proc.devRef .tc main_arg8)
abbrev rd_arg9 : S32.Idx → EReal := W (Proc.devRef .tc main_arg9)
abbrev rd_arg10 : S128x32.Idx → EReal := W (Proc.devRef .tc main_arg10)
abbrev rd_arg11 : S128x32.Idx → EReal := W (Proc.devRef .tc main_arg11)
abbrev rd_arg12 : S32.Idx → EReal := W (Proc.devRef .tc main_arg12)
abbrev rd_arg13 : S64x32.Idx → EReal := W (Proc.devRef .tc main_arg13)
abbrev rd_arg14 : S32x32.Idx → EReal := W (Proc.devRef .tc main_arg14)
abbrev rd_arg15 : S32.Idx → EReal := W (Proc.devRef .tc main_arg15)
abbrev rd_arg16 : S32x32.Idx → EReal := W (Proc.devRef .tc main_arg16)
abbrev rd_arg18 : S32.Idx → EReal := W (Proc.devRef .tc main_arg18)
abbrev rd_arg19 : S32x32.Idx → EReal := W (Proc.devRef .tc main_arg19)
abbrev rd_arg24 : S1.Idx → EReal := W (Proc.devRef .tc main_arg24)
abbrev rd_v1 : S200000x128.Idx → EReal := W (Proc.devRef .tc main_v1)
abbrev rd_v5 : S100000x64.Idx → EReal := W (Proc.devRef .tc main_v5)
abbrev rd_v51 : S200000x32.Idx → EReal := W (Proc.devRef .tc main_v51)
abbrev rd_v59 : S200000x32.Idx → EReal := W (Proc.devRef .tc main_v59)
abbrev rd_v72 : S200000x96.Idx → EReal := W (Proc.devRef .tc main_v72)
abbrev rd_v83 : S200000x32.Idx → EReal := W (Proc.devRef .tc main_v83)

theorem cat_band {α : Type} {n T : Nat} (xs : List ((s : Shape) × (s.Idx → α)))
    (h : Shape.Concatenates (xs.map (·.1)) ⟨2, ![n, T]⟩ 1)
    (k : Nat) (hk : k < xs.length) (m : Nat) (x₁ : (⟨2, ![n, m]⟩ : Shape).Idx → α) (hxk : xs[k] = ⟨⟨2, ![n, m]⟩, x₁⟩)
    (pre : Nat)
    (hpre : (((xs.take k).map (·.1)).map fun s => if h : s.rank = (⟨2, ![n, T]⟩ : Shape).rank then
      s.size ((1 : Fin (⟨2, ![n, T]⟩ : Shape).rank).cast h.symm) else 0).sum = pre)
    (r : Fin n) (c : Fin m) (j : Fin T) (hj : j.val = pre + c.val) :
    concatenate ⟨2, ![n, T]⟩ 1 xs h (ix2 r j) = x₁ (ix2 r c) :=
  concatenate_apply_piece 1 xs h _ k hk _ x₁ hxk rfl pre hpre (ix2 r c)
    (fun b hb => by
      match b with
      | ⟨0, _⟩ => rfl
      | ⟨1, _⟩ => exact absurd rfl hb)
    hj.symm

theorem row_of_two {α : Type} {E : Nat} (o : Nat) (X : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩)
    (k : Fin 2) (hk : k.val = o) (e : Fin E) :
    shapeCast ⟨1, ![E]⟩ (extractStridedSlice ⟨2, ![1, E]⟩ ![o, 0] X hs) hc (ix1 e) = X (ix2 k e) := by
  rw [shapeCast_1a_a_apply]
  exact slice2_axis0_apply o X hs 0 e k (by rw [hk]; rfl)

theorem wcat1_b0 (k : Fin 128) (h : Fin 32) :
    (StableHlo.after hostOps0 W (Proc.devRef .tc main_v0) : S128x128.Idx → EReal) (ix2 k ⟨h.val, by omega⟩) = rd_arg5 W (ix2 k h) := by
  dsimp only [hostOps0]
  after_results
  exact cat_band _ _ 0 (by simp) 32 (rd_arg5 W) rfl 0 rfl k h _ (Nat.zero_add _).symm

theorem wcat1_b1 (k : Fin 128) (h : Fin 32) :
    (StableHlo.after hostOps0 W (Proc.devRef .tc main_v0) : S128x128.Idx → EReal) (ix2 k ⟨32 + h.val, by omega⟩) = rd_arg7 W (ix2 k h) := by
  dsimp only [hostOps0]
  after_results
  exact cat_band _ _ 1 (by simp) 32 (rd_arg7 W) rfl 32 rfl k h _ rfl

theorem wcat1_b2 (k : Fin 128) (h : Fin 32) :
    (StableHlo.after hostOps0 W (Proc.devRef .tc main_v0) : S128x128.Idx → EReal) (ix2 k ⟨64 + h.val, by omega⟩) = rd_arg11 W (ix2 k h) := by
  dsimp only [hostOps0]
  after_results
  exact cat_band _ _ 2 (by simp) 32 (rd_arg11 W) rfl 64 rfl k h _ rfl

theorem wcat1_b3 (k : Fin 128) (h : Fin 32) :
    (StableHlo.after hostOps0 W (Proc.devRef .tc main_v0) : S128x128.Idx → EReal) (ix2 k ⟨96 + h.val, by omega⟩) = rd_arg10 W (ix2 k h) := by
  dsimp only [hostOps0]
  after_results
  exact cat_band _ _ 3 (by simp) 32 (rd_arg10 W) rfl 96 rfl k h _ rfl

theorem slice_v2 (r : Fin 200000) (h : Fin 32) :
    (StableHlo.after hostOps1 W (Proc.devRef .tc main_v2) : S200000x32.Idx → EReal) (ix2 r h) = rd_v1 W (ix2 r ⟨h.val, by omega⟩) := by
  dsimp only [hostOps1]
  after_results
  exact slice2_axis1_apply 0 _ _ r h _ (Nat.zero_add _).symm

theorem slice_v3 (r : Fin 200000) (h : Fin 32) :
    (StableHlo.after hostOps1 W (Proc.devRef .tc main_v3) : S200000x32.Idx → EReal) (ix2 r h) = rd_v1 W (ix2 r ⟨64 + h.val, by omega⟩) := by
  dsimp only [hostOps1]
  after_results
  exact slice2_axis1_apply 64 _ _ r h _ rfl

theorem wcat2_b0 (k : Fin 64) (h : Fin 32) :
    (StableHlo.after hostOps1 W (Proc.devRef .tc main_v4) : S64x64.Idx → EReal) (ix2 k ⟨h.val, by omega⟩) = rd_arg8 W (ix2 k h) := by
  dsimp only [hostOps1]
  after_results
  exact cat_band _ _ 0 (by simp) 32 (rd_arg8 W) rfl 0 rfl k h _ (Nat.zero_add _).symm

theorem wcat2_b1 (k : Fin 64) (h : Fin 32) :
    (StableHlo.after hostOps1 W (Proc.devRef .tc main_v4) : S64x64.Idx → EReal) (ix2 k ⟨32 + h.val, by omega⟩) = rd_arg13 W (ix2 k h) := by
  dsimp only [hostOps1]
  after_results
  exact cat_band _ _ 1 (by simp) 32 (rd_arg13 W) rfl 32 rfl k h _ rfl

theorem slice_v6 (r : Fin 100000) (h : Fin 32) :
    (StableHlo.after hostOps2 W (Proc.devRef .tc main_v6) : S100000x32.Idx → EReal) (ix2 r h) = rd_v5 W (ix2 r ⟨h.val, by omega⟩) := by
  dsimp only [hostOps2]
  after_results
  exact slice2_axis1_apply 0 _ _ r h _ (Nat.zero_add _).symm

theorem row_v45 (e : Fin 1000000) :
    (StableHlo.after hostOps2 W (Proc.devRef .tc main_v45) : IVec S1000000 32) (ix1 e) = rd_arg2 W (ix2 (0 : Fin 2) e) := by
  dsimp only [hostOps2]
  after_results
  exact row_of_two 0 _ _ _ (0 : Fin 2) rfl e

theorem row_v47 (e : Fin 1000000) :
    (StableHlo.after hostOps2 W (Proc.devRef .tc main_v47) : IVec S1000000 32) (ix1 e) = rd_arg2 W (ix2 (1 : Fin 2) e) := by
  dsimp only [hostOps2]
  after_results
  exact row_of_two 1 _ _ _ (1 : Fin 2) rfl e

theorem row_v53 (e : Fin 1000000) :
    (StableHlo.after hostOps2_2 W (Proc.devRef .tc main_v53) : IVec S1000000 32) (ix1 e) = rd_arg3 W (ix2 (0 : Fin 2) e) := by
  dsimp only [hostOps2_2]
  after_results
  exact row_of_two 0 _ _ _ (0 : Fin 2) rfl e

theorem row_v55 (e : Fin 1000000) :
    (StableHlo.after hostOps2_2 W (Proc.devRef .tc main_v55) : IVec S1000000 32) (ix1 e) = rd_arg3 W (ix2 (1 : Fin 2) e) := by
  dsimp only [hostOps2_2]
  after_results
  exact row_of_two 1 _ _ _ (1 : Fin 2) rfl e

theorem row_v61 (e : Fin 1000000) :
    (StableHlo.after hostOps2_4 W (Proc.devRef .tc main_v61) : IVec S1000000 32) (ix1 e) = rd_arg4 W (ix2 (0 : Fin 2) e) := by
  dsimp only [hostOps2_4]
  after_results
  exact row_of_two 0 _ _ _ (0 : Fin 2) rfl e

theorem row_v63 (e : Fin 1000000) :
    (StableHlo.after hostOps2_4 W (Proc.devRef .tc main_v63) : IVec S1000000 32) (ix1 e) = rd_arg4 W (ix2 (1 : Fin 2) e) := by
  dsimp only [hostOps2_4]
  after_results
  exact row_of_two 1 _ _ _ (1 : Fin 2) rfl e

theorem cat_v68_b0 (r : Fin 200000) (h : Fin 32) :
    (StableHlo.after hostOps2_6 W (Proc.devRef .tc main_v68) : S200000x64.Idx → EReal) (ix2 r ⟨h.val, by omega⟩) = rd_v51 W (ix2 r h) := by
  dsimp only [hostOps2_6]
  after_results
  exact cat_band _ _ 0 (by simp) 32 (rd_v51 W) rfl 0 rfl r h _ (Nat.zero_add _).symm

theorem cat_v68_b1 (r : Fin 200000) (h : Fin 32) :
    (StableHlo.after hostOps2_6 W (Proc.devRef .tc main_v68) : S200000x64.Idx → EReal) (ix2 r ⟨32 + h.val, by omega⟩) = rd_v59 W (ix2 r h) := by
  dsimp only [hostOps2_6]
  after_results
  exact cat_band _ _ 1 (by simp) 32 (rd_v59 W) rfl 32 rfl r h _ rfl

theorem wcat3_b0 (k : Fin 32) (h : Fin 32) :
    (StableHlo.after hostOps2_6 W (Proc.devRef .tc main_v69) : S32x96.Idx → EReal) (ix2 k ⟨h.val, by omega⟩) = rd_arg14 W (ix2 k h) := by
  dsimp only [hostOps2_6]
  after_results
  exact cat_band _ _ 0 (by simp) 32 (rd_arg14 W) rfl 0 rfl k h _ (Nat.zero_add _).symm

theorem wcat3_b1 (k : Fin 32) (h : Fin 32) :
    (StableHlo.after hostOps2_6 W (Proc.devRef .tc main_v69) : S32x96.Idx → EReal) (ix2 k ⟨32 + h.val, by omega⟩) = rd_arg16 W (ix2 k h) := by
  dsimp only [hostOps2_6]
  after_results
  exact cat_band _ _ 1 (by simp) 32 (rd_arg16 W) rfl 32 rfl k h _ rfl

theorem wcat3_b2 (k : Fin 32) (h : Fin 32) :
    (StableHlo.after hostOps2_6 W (Proc.devRef .tc main_v69) : S32x96.Idx → EReal) (ix2 k ⟨64 + h.val, by omega⟩) = rd_arg19 W (ix2 k h) := by
  dsimp only [hostOps2_6]
  after_results
  exact cat_band _ _ 2 (by simp) 32 (rd_arg19 W) rfl 64 rfl k h _ rfl

theorem bias_v70 (h : Fin 32) :
    (StableHlo.after hostOps2_6 W (Proc.devRef .tc main_v70) : S1x32.Idx → EReal) (ix2 (0 : Fin 1) h) = rd_arg6 W (ix1 h) := by
  dsimp only [hostOps2_6]
  after_results
  exact shapeCast_a_1a_apply _ _ 0 h

theorem bias_v71 (h : Fin 32) :
    (StableHlo.after hostOps2_6 W (Proc.devRef .tc main_v71) : S1x32.Idx → EReal) (ix2 (0 : Fin 1) h) = rd_arg9 W (ix1 h) := by
  dsimp only [hostOps2_6]
  after_results
  exact shapeCast_a_1a_apply _ _ 0 h

theorem bias_v73 (h : Fin 32) :
    (StableHlo.after hostOps3 W (Proc.devRef .tc main_v73) : S1x32.Idx → EReal) (ix2 (0 : Fin 1) h) = rd_arg12 W (ix1 h) := by
  dsimp only [hostOps3]
  after_results
  exact shapeCast_a_1a_apply _ _ 0 h

theorem slice_v75 (r : Fin 200000) (h : Fin 32) :
    (StableHlo.after hostOps4 W (Proc.devRef .tc main_v75) : S200000x32.Idx → EReal) (ix2 r h) = rd_v72 W (ix2 r ⟨h.val, by omega⟩) := by
  dsimp only [hostOps4]
  after_results
  exact slice2_axis1_apply 0 _ _ r h _ (Nat.zero_add _).symm

theorem row_v77 (e : Fin 1000000) :
    (StableHlo.after hostOps4 W (Proc.devRef .tc main_v77) : IVec S1000000 32) (ix1 e) = rd_arg2 W (ix2 (0 : Fin 2) e) := by
  dsimp only [hostOps4]
  after_results
  exact row_of_two 0 _ _ _ (0 : Fin 2) rfl e

theorem row_v79 (e : Fin 1000000) :
    (StableHlo.after hostOps4 W (Proc.devRef .tc main_v79) : IVec S1000000 32) (ix1 e) = rd_arg2 W (ix2 (1 : Fin 2) e) := by
  dsimp only [hostOps4]
  after_results
  exact row_of_two 1 _ _ _ (1 : Fin 2) rfl e

theorem row_v85 (e : Fin 1000000) :
    (StableHlo.after hostOps4_2 W (Proc.devRef .tc main_v85) : IVec S1000000 32) (ix1 e) = rd_arg3 W (ix2 (0 : Fin 2) e) := by
  dsimp only [hostOps4_2]
  after_results
  exact row_of_two 0 _ _ _ (0 : Fin 2) rfl e

theorem row_v87 (e : Fin 1000000) :
    (StableHlo.after hostOps4_2 W (Proc.devRef .tc main_v87) : IVec S1000000 32) (ix1 e) = rd_arg3 W (ix2 (1 : Fin 2) e) := by
  dsimp only [hostOps4_2]
  after_results
  exact row_of_two 1 _ _ _ (1 : Fin 2) rfl e

theorem cat_v92_b0 (r : Fin 200000) (h : Fin 32) :
    (StableHlo.after hostOps4_4 W (Proc.devRef .tc main_v92) : S200000x64.Idx → EReal) (ix2 r ⟨h.val, by omega⟩) = rd_v83 W (ix2 r h) := by
  dsimp only [hostOps4_4]
  after_results
  exact cat_band _ _ 0 (by simp) 32 (rd_v83 W) rfl 0 rfl r h _ (Nat.zero_add _).symm

theorem cat_v92_b1 (r : Fin 200000) (h : Fin 32) :
    (StableHlo.after hostOps4_4 W (Proc.devRef .tc main_v92) : S200000x64.Idx → EReal) (ix2 r ⟨32 + h.val, by omega⟩)
      = (StableHlo.after hostOps4_4 W (Proc.devRef .tc main_v91) : S200000x32.Idx → EReal) (ix2 r h) := by
  dsimp only [hostOps4_4]
  after_results
  exact cat_band _ _ 1 (by simp) 32 _ rfl 32 rfl r h _ rfl

theorem bias_v93 (h : Fin 32) :
    (StableHlo.after hostOps4_4 W (Proc.devRef .tc main_v93) : S1x32.Idx → EReal) (ix2 (0 : Fin 1) h) = rd_arg15 W (ix1 h) := by
  dsimp only [hostOps4_4]
  after_results
  exact shapeCast_a_1a_apply _ _ 0 h

theorem bias_v94 (h : Fin 32) :
    (StableHlo.after hostOps4_4 W (Proc.devRef .tc main_v94) : S1x32.Idx → EReal) (ix2 (0 : Fin 1) h) = rd_arg18 W (ix1 h) := by
  dsimp only [hostOps4_4]
  after_results
  exact shapeCast_a_1a_apply _ _ 0 h

theorem bias_v95 (h : Fin 1) :
    (StableHlo.after hostOps4_4 W (Proc.devRef .tc main_v95) : S1x1.Idx → EReal) (ix2 (0 : Fin 1) h) = rd_arg24 W (ix1 h) := by
  dsimp only [hostOps4_4]
  after_results
  exact shapeCast_a_1a_apply _ _ 0 h

end Cert.KernelIdeal.Host

end
-- ==== Proof.KI.HostDegrees.lean ====
import proofs.«417774_j30605936951692_3_alg».proof.Proof.Gen.KernelIdeal.Launch
import proofs.«417774_j30605936951692_3_alg».proof.Proof.Spec
import proofs.«417774_j30605936951692_3_alg».proof.Proof.LibRows
import proofs.«417774_j30605936951692_3_alg».proof.Proof.KI.HostLayout
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.TcCoe Idealize.ShloMosaic.ValueIdx Idealize.SL.Sem
open scoped BigOperators

section Core

variable {N E : Nat}

theorem scatter_take_result {w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (idx : IVec ⟨2, ![E, 1]⟩ w) (e : Fin E) (r : Fin N) :
    d.resultIdx? (ix1 e) idx = some (ix1 r) ↔ (idx (ix2 e (0 : Fin 1))).toInt = (r.val : Int) := by
  have hin0 : (0 : Fin 1) ∈ d.scatterDimsToOperandDims := by rw [hsd]; exact List.mem_singleton.mpr rfl
  have hk0 : (0 : Fin 1) ∉ d.sKept := by
    show (0 : Fin 1) ∉ Shape.kept _ d.insertedWindowDims
    rw [hiw]; simp [Shape.kept]

  have c0 : ∀ a : Fin 1, ((ix1 e) a).val = e.val := fun a => by match a with | ⟨0, _⟩ => rfl

  have hs0 : d.start (ix1 e) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg hk0]
  have hr := r.isLt
  unfold ScatterDims.resultIdx?
  split
  · next h =>
    rw [Option.some.injEq]
    constructor
    · intro heq
      have h0 : (d.start (ix1 e) idx 0 + d.window (ix1 e) 0).toNat = r.val := congrArg (fun f => (f 0).val) heq
      have hh0 := (h 0).1
      rw [hs0, hw0] at h0 hh0
      omega
    · intro hr'
      funext a
      match a with
      | ⟨0, _⟩ =>
        apply Fin.ext
        show (d.start (ix1 e) idx 0 + d.window (ix1 e) 0).toNat = r.val
        rw [hs0, hw0, hr']; omega
  · next h =>
    constructor
    · intro heq; exact absurd heq (by simp)
    · intro hr'
      exfalso; apply h
      intro a
      match a with
      | ⟨0, _⟩ =>
        show 0 ≤ d.start (ix1 e) idx 0 + d.window (ix1 e) 0 ∧ d.start (ix1 e) idx 0 + d.window (ix1 e) 0 < (N : Int)
        rw [hs0, hw0, hr']; omega

theorem scatter_count (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → BitVec 32) (idx : IVec ⟨2, ![E, 1]⟩ 32) (upd : (⟨1, ![E]⟩ : Shape).Idx → BitVec 32)
    (hx : ∀ i, x i = 0#32) (hu : ∀ j, upd j = 1#32) (r : Fin N) :
    Host.scatter d IntOp.addi x idx upd (ix1 r)
      = BitVec.ofNat 32 (Cert.Spec.lands N (fun e => idx (ix2 e (0 : Fin 1))) r).card := by

  let g : Fin (⟨1, ![E]⟩ : Shape).numel → Fin E := fun n => ((⟨1, ![E]⟩ : Shape).rowMajor.symm n) 0
  have hg : ∀ n, (⟨1, ![E]⟩ : Shape).rowMajor.symm n = ix1 (g n) := fun n => eq_ix1 _

  have key : ∀ (step : ((⟨1, ![N]⟩ : Shape).Idx → BitVec 32) → Fin (⟨1, ![E]⟩ : Shape).numel → ((⟨1, ![N]⟩ : Shape).Idx → BitVec 32))
      (hstep : ∀ acc n, step acc n (ix1 r)
        = acc (ix1 r) + BitVec.ofNat 32 (if (idx (ix2 (g n) (0 : Fin 1))).toInt = (r.val : Int) then 1 else 0))
      (L : List (Fin (⟨1, ![E]⟩ : Shape).numel)) (acc : (⟨1, ![N]⟩ : Shape).Idx → BitVec 32),
      (L.foldl step acc) (ix1 r)
        = acc (ix1 r) + BitVec.ofNat 32 ((L.map fun n => if (idx (ix2 (g n) (0 : Fin 1))).toInt = (r.val : Int) then 1 else 0).sum) := by
    intro step hstep L
    induction L with
    | nil => intro acc; simp
    | cons n L ih =>
      intro acc
      rw [List.foldl_cons, ih, hstep, List.map_cons, List.sum_cons, BitVec.ofNat_add, BitVec.add_assoc]
  unfold Host.scatter
  refine (key _ (fun acc n => ?_) _ _).trans ?_
  ·
    have hland := scatter_take_result d huw hiw hsd hivd idx (g n) r
    rw [← hg n] at hland
    by_cases hq : (idx (ix2 (g n) (0 : Fin 1))).toInt = (r.val : Int)
    · rw [if_pos hq, hland.mpr hq]
      show (if ix1 r = ix1 r then IntOp.addi (acc (ix1 r)) (upd _) else acc (ix1 r)) = _
      rw [if_pos rfl, hu]; rfl
    · rw [if_neg hq]
      have hne : d.resultIdx? ((⟨1, ![E]⟩ : Shape).rowMajor.symm n) idx ≠ some (ix1 r) := fun h => hq (hland.mp h)
      rw [BitVec.add_zero]
      generalize d.resultIdx? ((⟨1, ![E]⟩ : Shape).rowMajor.symm n) idx = o at hne ⊢
      cases o with
      | none => rfl
      | some i =>
        show (if ix1 r = i then _ else acc (ix1 r)) = _
        rw [if_neg (fun h => hne (by rw [h]))]
  · rw [hx, BitVec.zero_add]
    congr 1

    let ge : Fin (⟨1, ![E]⟩ : Shape).numel ≃ Fin E :=
      (⟨1, ![E]⟩ : Shape).rowMajor.symm.trans ⟨fun j => j 0, fun e => ix1 e, fun j => (eq_ix1 j).symm, fun _ => rfl⟩
    rw [← Fin.sum_univ_def]
    show ∑ n, (fun e : Fin E => if (idx (ix2 e (0 : Fin 1))).toInt = (r.val : Int) then 1 else 0) (ge n) = _
    rw [Equiv.sum_comp ge (fun e : Fin E => if (idx (ix2 e (0 : Fin 1))).toInt = (r.val : Int) then 1 else 0)]
    unfold Cert.Spec.lands
    rw [Finset.card_filter]

theorem sitofp_scatter_count (hE : E < 2 ^ 31) (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → BitVec 32) (idx : IVec ⟨2, ![E, 1]⟩ 32) (upd : (⟨1, ![E]⟩ : Shape).Idx → BitVec 32)
    (hx : ∀ i, x i = 0#32) (hu : ∀ j, upd j = 1#32) (r : Fin N) :
    ((((Host.scatter d IntOp.addi x idx upd (ix1 r)).toInt : ℝ)) : EReal)
      = Cert.Spec.deg N (fun e => idx (ix2 e (0 : Fin 1))) r := by
  rw [scatter_count d huw hiw hsd hivd x idx upd hx hu r]
  have hc : (Cert.Spec.lands N (fun e => idx (ix2 e (0 : Fin 1))) r).card < 2 ^ 31 :=
    lt_of_le_of_lt ((Finset.card_le_univ _).trans (by rw [Fintype.card_fin])) hE
  rw [StableHlo.Predicate.toInt_ofNat_small _ hc, Int.cast_natCast]
  rfl

theorem ofBits_one : Ideal.ofBits .f32 0x3F800000#32 = 1 := by
  simp [Ideal.ofBits, Ideal.ieee, -EReal.coe_mul]; norm_num

theorem recip_col_apply (cnt : IVec ⟨1, ![N]⟩ 32)
    (hsc : (⟨1, ![N]⟩ : Shape).ShapeCasts ⟨2, ![N, 1]⟩)
    (hb : (⟨0, ![]⟩ : Shape).BroadcastsInDim ⟨2, ![N, 1]⟩ ![]) (r : Fin N) :
    Host.divf (F := Ideal) (broadcastInDim ⟨2, ![N, 1]⟩ ![] hb (constant (F := Ideal) ⟨0, ![]⟩ .f32 0x3F800000#32))
        (maximumf (shapeCast ⟨2, ![N, 1]⟩ (sitofp (F := Ideal) .f32 cnt) hsc)
          (broadcastInDim ⟨2, ![N, 1]⟩ ![] hb (constant (F := Ideal) ⟨0, ![]⟩ .f32 0x3F800000#32)))
        (ix2 r (0 : Fin 1))
      = Ideal.div 1 (max ((((cnt (ix1 r)).toInt : ℝ)) : EReal) 1) := by
  have hcast : shapeCast ⟨2, ![N, 1]⟩ (sitofp (F := Ideal) .f32 cnt) hsc (ix2 r (0 : Fin 1)) = sitofp (F := Ideal) .f32 cnt (ix1 r) :=
    shapeCast_apply _ hsc (ix2 r (0 : Fin 1)) (ix1 r) (by
      rw [Shape.rowMajor_val_one, Shape.rowMajor_val_two]
      show r.val = r.val * 1 + 0
      omega)
  show Ideal.div (Ideal.ofBits .f32 0x3F800000#32)
      (max (shapeCast ⟨2, ![N, 1]⟩ (sitofp (F := Ideal) .f32 cnt) hsc (ix2 r (0 : Fin 1))) (Ideal.ofBits .f32 0x3F800000#32)) = _
  rw [hcast, ofBits_one]
  rfl

end Core

theorem dst_col_apply (a : S2x1000000.Idx → BitVec 32) (e : Fin 1000000) :
    broadcastInDim S1000000x1 ![0] bcast_S1000000_S1000000x1_0
        (shapeCast S1000000 (extractStridedSlice S1x1000000 ![1, 0] a slices_S2x1000000_S1x1000000_1_0) shapeCasts_S1x1000000_S1000000)
        (ix2 e (0 : Fin 1))
      = a (ix2 (1 : Fin 2) e) := by
  rw [broadcastInDim_apply _ bcast_S1000000_S1000000x1_0 _ (ix2 e (0 : Fin 1)) (ix1 e) (fun b => by
    match b with
    | ⟨0, _⟩ => show e.val = if (1000000 : Nat) = 1 then 0 else e.val; rw [if_neg (by decide)])]
  rw [shapeCast_apply _ shapeCasts_S1x1000000_S1000000 (ix1 e) (ix2 (0 : Fin 1) e) (by
    rw [Shape.rowMajor_val_two, Shape.rowMajor_val_one]
    show 0 * 1000000 + e.val = e.val
    omega)]
  exact extractStridedSlice_apply _ a slices_S2x1000000_S1x1000000_1_0 (ix2 (0 : Fin 1) e) (ix2 (1 : Fin 2) e) (fun b => by
    match b with
    | ⟨0, _⟩ => rfl
    | ⟨1, _⟩ => show e.val = 0 + e.val; omega)

variable (W : Valuation τ sig (Elt Ideal))

theorem recip_of_edges {N : Nat} (d : ScatterDims ⟨1, ![N]⟩ ⟨2, ![1000000, 1]⟩ ⟨1, ![1000000]⟩)
    (huw : d.updateWindowDims = []) (hiw : d.insertedWindowDims = [0]) (hsd : d.scatterDimsToOperandDims = [0])
    (hivd : d.indexVectorDim = 1)
    (hz : (⟨0, ![]⟩ : Shape).BroadcastsInDim ⟨1, ![N]⟩ ![])
    (hsc : (⟨1, ![N]⟩ : Shape).ShapeCasts ⟨2, ![N, 1]⟩)
    (hb : (⟨0, ![]⟩ : Shape).BroadcastsInDim ⟨2, ![N, 1]⟩ ![])
    (a : S2x1000000.Idx → BitVec 32) (r : Fin N) :
    Host.divf (F := Ideal) (broadcastInDim ⟨2, ![N, 1]⟩ ![] hb (constant (F := Ideal) ⟨0, ![]⟩ .f32 0x3F800000#32))
        (maximumf (shapeCast ⟨2, ![N, 1]⟩ (sitofp (F := Ideal) .f32
            (Host.scatter d IntOp.addi
              (broadcastInDim ⟨1, ![N]⟩ ![] hz (constantI S_ 32 0#32))
              (broadcastInDim S1000000x1 ![0] bcast_S1000000_S1000000x1_0
                (shapeCast S1000000 (extractStridedSlice S1x1000000 ![1, 0] a slices_S2x1000000_S1x1000000_1_0) shapeCasts_S1x1000000_S1000000))
              (broadcastInDim S1000000 ![] bcast_S_S1000000 (constantI S_ 32 1#32)))) hsc)
          (broadcastInDim ⟨2, ![N, 1]⟩ ![] hb (constant (F := Ideal) ⟨0, ![]⟩ .f32 0x3F800000#32)))
        (ix2 r (0 : Fin 1))
      = Ideal.div 1 (max (Cert.Spec.deg N (fun e => a (ix2 (1 : Fin 2) e)) r) 1) := by
  rw [recip_col_apply _ hsc hb r,
    sitofp_scatter_count (by decide) d huw hiw hsd hivd (broadcastInDim ⟨1, ![N]⟩ ![] hz (constantI S_ 32 0#32)) _
      (broadcastInDim S1000000 ![] bcast_S_S1000000 (constantI S_ 32 1#32)) (fun _ => rfl) (fun _ => rfl) r]
  congr 3
  funext e
  exact dst_col_apply a e

theorem recip_cw0 (r : Fin 200000) :
    (StableHlo.after hostOps2 W (Proc.devRef .tc main_v43) : S200000x2.Idx → EReal) (ix2 r (0 : Fin 2))
      = Ideal.div 1 (max (Cert.Spec.deg 200000 (fun e => rd_arg2 W (ix2 (1 : Fin 2) e)) r) 1) := by
  dsimp only [hostOps2]
  after_results_simp
  rw [concatenate_pair_apply_left (t := S200000x2) (s₁ := S200000x1) (s₂ := S200000x1) (1 : Fin 2) _ _ _ (ix2 r (0 : Fin 2)) rfl (ix2 r (0 : Fin 1)) (fun b => by
    match b with
    | ⟨0, _⟩ => rfl
    | ⟨1, _⟩ => rfl)]
  exact recip_of_edges (N := 200000) scatter_S200000_S1000000x1_S1000000_n_0_0_1 rfl rfl rfl rfl
    bcast_S_S200000 shapeCasts_S200000_S200000x1 bcast_S_S200000x1 (rd_arg2 W) r

theorem recip_cw1 (r : Fin 200000) :
    (StableHlo.after hostOps2 W (Proc.devRef .tc main_v43) : S200000x2.Idx → EReal) (ix2 r (1 : Fin 2))
      = Ideal.div 1 (max (Cert.Spec.deg 200000 (fun e => rd_arg3 W (ix2 (1 : Fin 2) e)) r) 1) := by
  dsimp only [hostOps2]
  after_results_simp
  rw [concatenate_pair_apply_right (t := S200000x2) (s₁ := S200000x1) (s₂ := S200000x1) (1 : Fin 2) _ _ _ (ix2 r (1 : Fin 2)) rfl rfl (ix2 r (0 : Fin 1)) (fun b hb => by
    match b with
    | ⟨0, _⟩ => rfl
    | ⟨1, _⟩ => exact absurd rfl hb) (by show 0 + 1 = 1; rfl)]
  exact recip_of_edges (N := 200000) scatter_S200000_S1000000x1_S1000000_n_0_0_1 rfl rfl rfl rfl
    bcast_S_S200000 shapeCasts_S200000_S200000x1 bcast_S_S200000x1 (rd_arg3 W) r

theorem recip_r (r : Fin 100000) :
    (StableHlo.after hostOps2 W (Proc.devRef .tc main_v42) : S100000x1.Idx → EReal) (ix2 r (0 : Fin 1))
      = Ideal.div 1 (max (Cert.Spec.deg 100000 (fun e => rd_arg4 W (ix2 (1 : Fin 2) e)) r) 1) := by
  dsimp only [hostOps2]
  after_results_simp
  exact recip_of_edges (N := 100000) scatter_S100000_S1000000x1_S1000000_n_0_0_1 rfl rfl rfl rfl
    bcast_S_S100000 shapeCasts_S100000_S100000x1 bcast_S_S100000x1 (rd_arg4 W) r

end Cert.KernelIdeal.Host
-- ==== Proof.KI.HostEdges.lean ====
import proofs.«417774_j30605936951692_3_alg».proof.Proof.Gen.KernelIdeal.Launch
import proofs.«417774_j30605936951692_3_alg».proof.Proof.Spec
import proofs.«417774_j30605936951692_3_alg».proof.Proof.LibRows
import proofs.«417774_j30605936951692_3_alg».proof.Proof.KI.HostLayout
import Idealize.ShloMosaic.Lib.StableHlo.Run
import Idealize.ShloMosaic.Lib.StableHlo.Predicate
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

noncomputable section

namespace Cert.KernelIdeal.Host

open Cert.KernelIdeal Cert.KernelIdeal.Gen Idealize.ShloMosaic Idealize.ShloMosaic.TcCoe Idealize.ShloMosaic.ValueIdx Idealize.SL.Sem

variable (W : Valuation τ sig (Elt Ideal))

abbrev rd_v2 : S200000x32.Idx → EReal := W (Proc.devRef .tc main_v2)
abbrev rd_v3 : S200000x32.Idx → EReal := W (Proc.devRef .tc main_v3)
abbrev rd_v6 : S100000x32.Idx → EReal := W (Proc.devRef .tc main_v6)
abbrev rd_v45 : S1000000.Idx → BitVec 32 := W (Proc.devRef .tc main_v45)
abbrev rd_v47 : S1000000.Idx → BitVec 32 := W (Proc.devRef .tc main_v47)
abbrev rd_v48 : S1000000x32.Idx → EReal := W (Proc.devRef .tc main_v48)
abbrev rd_v53 : S1000000.Idx → BitVec 32 := W (Proc.devRef .tc main_v53)
abbrev rd_v55 : S1000000.Idx → BitVec 32 := W (Proc.devRef .tc main_v55)
abbrev rd_v56 : S1000000x32.Idx → EReal := W (Proc.devRef .tc main_v56)
abbrev rd_v61 : S1000000.Idx → BitVec 32 := W (Proc.devRef .tc main_v61)
abbrev rd_v63 : S1000000.Idx → BitVec 32 := W (Proc.devRef .tc main_v63)
abbrev rd_v64 : S1000000x32.Idx → EReal := W (Proc.devRef .tc main_v64)
abbrev rd_v74 : S100000x32.Idx → EReal := W (Proc.devRef .tc main_v74)
abbrev rd_v75 : S200000x32.Idx → EReal := W (Proc.devRef .tc main_v75)
abbrev rd_v77 : S1000000.Idx → BitVec 32 := W (Proc.devRef .tc main_v77)
abbrev rd_v79 : S1000000.Idx → BitVec 32 := W (Proc.devRef .tc main_v79)
abbrev rd_v80 : S1000000x32.Idx → EReal := W (Proc.devRef .tc main_v80)
abbrev rd_v85 : S1000000.Idx → BitVec 32 := W (Proc.devRef .tc main_v85)
abbrev rd_v87 : S1000000.Idx → BitVec 32 := W (Proc.devRef .tc main_v87)
abbrev rd_v88 : S1000000x32.Idx → EReal := W (Proc.devRef .tc main_v88)

theorem ofBuf_toBuf {T : BufTy} (x : StableHlo.TRef sig T) (v : T.Contents (Elt Ideal)) :
    x.ofBuf (x.toBuf v) = v := by
  obtain ⟨r, rfl, _, _⟩ := x
  rfl

theorem ofBuf_v48 (f : main_v48.ty.Contents (Elt Ideal)) :
    (StableHlo.TRef.of main_v48 : StableHlo.TRef sig ⟨S1000000x32, .f32⟩).ofBuf f = (f : S1000000x32.Idx → EReal) := rfl

theorem ofBuf_v56 (f : main_v56.ty.Contents (Elt Ideal)) :
    (StableHlo.TRef.of main_v56 : StableHlo.TRef sig ⟨S1000000x32, .f32⟩).ofBuf f = (f : S1000000x32.Idx → EReal) := rfl

theorem ofBuf_v64 (f : main_v64.ty.Contents (Elt Ideal)) :
    (StableHlo.TRef.of main_v64 : StableHlo.TRef sig ⟨S1000000x32, .f32⟩).ofBuf f = (f : S1000000x32.Idx → EReal) := rfl

theorem ofBuf_v80 (f : main_v80.ty.Contents (Elt Ideal)) :
    (StableHlo.TRef.of main_v80 : StableHlo.TRef sig ⟨S1000000x32, .f32⟩).ofBuf f = (f : S1000000x32.Idx → EReal) := rfl

theorem ofBuf_v88 (f : main_v88.ty.Contents (Elt Ideal)) :
    (StableHlo.TRef.of main_v88 : StableHlo.TRef sig ⟨S1000000x32, .f32⟩).ofBuf f = (f : S1000000x32.Idx → EReal) := rfl

theorem cmpi_slt_eq_one {w : Nat} (a b : BitVec w) : IntOp.cmpi .slt a b = 1#1 ↔ a.toInt < b.toInt := by
  simp only [IntOp.cmpi, StableHlo.Predicate.ofBool_eq_one_iff, BitVec.slt, decide_eq_true_eq]

theorem cmpi_sle_eq_one {w : Nat} (a b : BitVec w) : IntOp.cmpi .sle a b = 1#1 ↔ a.toInt ≤ b.toInt := by
  simp only [IntOp.cmpi, StableHlo.Predicate.ofBool_eq_one_iff, BitVec.sle, decide_eq_true_eq]

theorem cmpi_sge_eq_one {w : Nat} (a b : BitVec w) : IntOp.cmpi .sge a b = 1#1 ↔ b.toInt ≤ a.toInt := by
  simp only [IntOp.cmpi, StableHlo.Predicate.ofBool_eq_one_iff, BitVec.sle, decide_eq_true_eq]

theorem wrap_toInt {N : Nat} (hN : N ≤ 2 ^ 30) (b : BitVec 32) (hlo : -(N : Int) ≤ b.toInt) (hhi : b.toInt < (N : Int)) :
    0 ≤ (Cert.Spec.wrap (BitVec.ofNat 32 N) b).toInt ∧ (Cert.Spec.wrap (BitVec.ofNat 32 N) b).toInt < (N : Int) := by
  have h0 : (0#32 : BitVec 32).toInt = 0 := by decide
  unfold Cert.Spec.wrap Scalar.select
  by_cases hneg : b.toInt < 0
  · have hc : IntOp.cmpi .slt b 0#32 = 1 := (cmpi_slt_eq_one b 0#32).2 (by rw [h0]; exact hneg)
    rw [if_pos hc]
    have hb := b.isLt
    unfold IntOp.addi
    rw [BitVec.toInt_eq_toNat_cond] at hlo hhi hneg ⊢
    simp only [BitVec.toNat_add, BitVec.toNat_ofNat] at hlo hhi hneg ⊢
    split_ifs at hlo hhi hneg ⊢ <;> omega
  · have hc : ¬ IntOp.cmpi .slt b 0#32 = 1 := fun hc => hneg (by
      have := (cmpi_slt_eq_one b 0#32).1 hc; rwa [h0] at this)
    rw [if_neg hc]
    exact ⟨by omega, hhi⟩

theorem fold_univ_fin_one {α : Type} (op : α → α → α) [Std.Commutative op] [Std.Associative op] (b : α) {n : Nat}
    (hn : n = 1) (f : Fin n → α) : (Finset.univ : Finset (Fin n)).fold op b f = op (f ⟨0, by omega⟩) b := by
  subst hn
  rw [show (Finset.univ : Finset (Fin 1)) = {0} from rfl, Finset.fold_singleton]
  rfl

theorem reduce_and_col (hr' : S1000000x1.ReducesTo [1] S1000000) (hu : 0 < S_.numel) (x : IVec S1000000x1 1)
    (init : IVec S_ 1) (e : Fin 1000000) :
    Host.reduce IntOp.andi x init hr' hu (ix1 e) = IntOp.andi (x (ix2 e (0 : Fin 1))) (init (Shape.Idx.first hu)) := by
  have hr : S1000000x1.Reduces [1] S1000000 := by decide
  rw [Host.reduce_eq_fold_single IntOp.andi x init hr' hr hu (ix1 e),
    fold_univ_fin_one IntOp.andi _ (rfl : S1000000x1.size 1 = 1)]
  congr 1
  show x (hr.lift (ix1 e) _) = x (ix2 e (0 : Fin 1))
  congr 1
  funext c
  match c with
  | ⟨0, _⟩ => rfl
  | ⟨1, _⟩ => rfl

/-- The indices of a take as its gather reads them: a negative index counted from the end, as a column. -/
abbrev wrapCol (N : Nat) (hb1 : S_.BroadcastsInDim S1000000 ![]) (hb2 : S1000000.BroadcastsInDim S1000000x1 ![0])
    (s : IVec S1000000 32) : IVec S1000000x1 32 :=
  broadcastInDim S1000000x1 ![0] hb2 (select (cmpi .slt s (broadcastInDim S1000000 ![] hb1 (constantI S_ 32 0#32))) (addi s (broadcastInDim S1000000 ![] hb1 (constantI S_ 32 (BitVec.ofNat 32 N)))) s)

/-- A word in [0, M] passes a take's in-range test. -/
theorem inRange_one {M : Nat} (hM : M < 2 ^ 31) (w : BitVec 32) (h0 : 0 ≤ w.toInt) (h1 : w.toInt ≤ M) :
    IntOp.andi (IntOp.andi (IntOp.cmpi .sge w 0#32) (IntOp.cmpi .sle w (BitVec.ofNat 32 M))) 1#1 = 1#1 := by
  rw [(cmpi_sge_eq_one _ _).2 (by rw [show (0#32 : BitVec 32).toInt = 0 by decide]; exact h0),
    (cmpi_sle_eq_one _ _).2 (by rw [StableHlo.Predicate.toInt_ofNat_small M hM]; exact h1)]
  decide

/-- A take of the rows of a table of N rows: at an index in [-N, N) the in-range mask is true, and the row is the table's at the wrapped index. -/
theorem take_read {N M : Nat} (hM : M + 1 = N) (hN : N ≤ 2 ^ 30)
    (d : GatherDims ⟨2, ![N, 32]⟩ S1000000x1 S1000000x32)
    (hoff : d.offsetDims = [1]) (hcoll : d.collapsedSliceDims = [0]) (hob : d.operandBatchingDims = [])
    (hsb : d.startIndicesBatchingDims = []) (hsim : d.startIndexMap = [0]) (hivd : d.indexVectorDim = 1)
    (hb1 : S_.BroadcastsInDim S1000000 ![]) (hb2 : S1000000.BroadcastsInDim S1000000x1 ![0])
    (hb3 : S_.BroadcastsInDim S1000000x1 ![]) (hb4 : S1.BroadcastsInDim S1x1 ![1])
    (hb5 : S1x1.BroadcastsInDim S1000000x1 ![0, 1]) (hb6 : S1000000.BroadcastsInDim S1000000x32 ![0])
    (hb7 : S_.BroadcastsInDim S1000000x32 ![])
    (hr : S1000000x1.ReducesTo [1] S1000000) (hu : 0 < S_.numel)
    (T : (⟨2, ![N, 32]⟩ : Shape).Idx → EReal) (s : IVec S1000000 32) (c : BitVec 32) (e : Fin 1000000) (h : Fin 32)
    (hlo : -(N : Int) ≤ (s (ix1 e)).toInt) (hhi : (s (ix1 e)).toInt < (N : Int)) :
    (select (broadcastInDim S1000000x32 ![0] hb6 (Host.reduce IntOp.andi (andi (cmpi .sge (wrapCol N hb1 hb2 s) (broadcastInDim S1000000x1 ![] hb3 (constantI S_ 32 0#32))) (cmpi .sle (wrapCol N hb1 hb2 s) (broadcastInDim S1000000x1 ![0, 1] hb5 (broadcastInDim S1x1 ![1] hb4 (constantI S1 32 (BitVec.ofNat 32 M)))))) (constantI S_ 1 1#1) hr hu))
      (Host.gather d T (wrapCol N hb1 hb2 s))
      (broadcastInDim S1000000x32 ![] hb7 (constant (F := Ideal) S_ .f32 c)) : S1000000x32.Idx → EReal) (ix2 e h)
    = T (ix2 (Cert.Spec.srcRow N (by omega) (s (ix1 e))) h) := by
  have hv5 : wrapCol N hb1 hb2 s (ix2 e (0 : Fin 1)) = Cert.Spec.wrap (BitVec.ofNat 32 N) (s (ix1 e)) := by
    unfold wrapCol
    rw [broadcastInDim_apply ![0] hb2 _ (ix2 e (0 : Fin 1)) (ix1 e) (fun a => by match a with | ⟨0, _⟩ => rfl)]
    rfl
  obtain ⟨hw0, hw1⟩ := wrap_toInt hN (s (ix1 e)) hlo hhi
  rw [select_apply, broadcastInDim_apply ![0] hb6 _ (ix2 e h) (ix1 e) (fun a => by match a with | ⟨0, _⟩ => rfl), reduce_and_col]
  refine (congrArg (fun b => Scalar.select b _ _) (inRange_one (M := M) (by omega) (wrapCol N hb1 hb2 s (ix2 e (0 : Fin 1))) (by rw [hv5]; exact hw0) (by rw [hv5]; omega))).trans ?_
  rw [select_one, LibRows.gather_rows_apply (by omega) d hoff hcoll hob hsb hsim hivd T _ e h, hv5]
  rfl

section Takes

open Idealize.ShloMosaic.StableHlo

theorem take2_1 (e : Fin 1000000) (h : Fin 32)
    (hin : -200000 ≤ (rd_v45 W (ix1 e)).toInt ∧ (rd_v45 W (ix1 e)).toInt < 200000) :
    (StableHlo.after hostOps2_1 W (Proc.devRef .tc main_v48) : S1000000x32.Idx → EReal) (ix2 e h)
      = rd_v2 W (ix2 (Cert.Spec.srcRow 200000 (by decide) (rd_v45 W (ix1 e))) h) := by
  rw [← ofBuf_v48 (StableHlo.after hostOps2_1 W (Proc.devRef .tc main_v48))]
  dsimp only [hostOps2_1]
  after_results_simp
  simp only [ofBuf_toBuf]
  exact take_read (N := 200000) (M := 199999) rfl (by norm_num) gather_S200000x32_S1000000x1_S1000000x32_1_0_n_n_0_1_132 rfl rfl rfl rfl rfl rfl _ _ _ _ _ _ _ _ _ _ _ _ e h hin.1 hin.2

theorem take2_3 (e : Fin 1000000) (h : Fin 32)
    (hin : -100000 ≤ (rd_v53 W (ix1 e)).toInt ∧ (rd_v53 W (ix1 e)).toInt < 100000) :
    (StableHlo.after hostOps2_3 W (Proc.devRef .tc main_v56) : S1000000x32.Idx → EReal) (ix2 e h)
      = rd_v6 W (ix2 (Cert.Spec.srcRow 100000 (by decide) (rd_v53 W (ix1 e))) h) := by
  rw [← ofBuf_v56 (StableHlo.after hostOps2_3 W (Proc.devRef .tc main_v56))]
  dsimp only [hostOps2_3]
  after_results_simp
  simp only [ofBuf_toBuf]
  exact take_read (N := 100000) (M := 99999) rfl (by norm_num) gather_S100000x32_S1000000x1_S1000000x32_1_0_n_n_0_1_132 rfl rfl rfl rfl rfl rfl _ _ _ _ _ _ _ _ _ _ _ _ e h hin.1 hin.2

theorem take2_5 (e : Fin 1000000) (h : Fin 32)
    (hin : -200000 ≤ (rd_v61 W (ix1 e)).toInt ∧ (rd_v61 W (ix1 e)).toInt < 200000) :
    (StableHlo.after hostOps2_5 W (Proc.devRef .tc main_v64) : S1000000x32.Idx → EReal) (ix2 e h)
      = rd_v3 W (ix2 (Cert.Spec.srcRow 200000 (by decide) (rd_v61 W (ix1 e))) h) := by
  rw [← ofBuf_v64 (StableHlo.after hostOps2_5 W (Proc.devRef .tc main_v64))]
  dsimp only [hostOps2_5]
  after_results_simp
  simp only [ofBuf_toBuf]
  exact take_read (N := 200000) (M := 199999) rfl (by norm_num) gather_S200000x32_S1000000x1_S1000000x32_1_0_n_n_0_1_132 rfl rfl rfl rfl rfl rfl _ _ _ _ _ _ _ _ _ _ _ _ e h hin.1 hin.2

theorem take4_1 (e : Fin 1000000) (h : Fin 32)
    (hin : -200000 ≤ (rd_v77 W (ix1 e)).toInt ∧ (rd_v77 W (ix1 e)).toInt < 200000) :
    (StableHlo.after hostOps4_1 W (Proc.devRef .tc main_v80) : S1000000x32.Idx → EReal) (ix2 e h)
      = rd_v75 W (ix2 (Cert.Spec.srcRow 200000 (by decide) (rd_v77 W (ix1 e))) h) := by
  rw [← ofBuf_v80 (StableHlo.after hostOps4_1 W (Proc.devRef .tc main_v80))]
  dsimp only [hostOps4_1]
  after_results_simp
  simp only [ofBuf_toBuf]
  exact take_read (N := 200000) (M := 199999) rfl (by norm_num) gather_S200000x32_S1000000x1_S1000000x32_1_0_n_n_0_1_132 rfl rfl rfl rfl rfl rfl _ _ _ _ _ _ _ _ _ _ _ _ e h hin.1 hin.2

theorem take4_3 (e : Fin 1000000) (h : Fin 32)
    (hin : -100000 ≤ (rd_v85 W (ix1 e)).toInt ∧ (rd_v85 W (ix1 e)).toInt < 100000) :
    (StableHlo.after hostOps4_3 W (Proc.devRef .tc main_v88) : S1000000x32.Idx → EReal) (ix2 e h)
      = rd_v74 W (ix2 (Cert.Spec.srcRow 100000 (by decide) (rd_v85 W (ix1 e))) h) := by
  rw [← ofBuf_v88 (StableHlo.after hostOps4_3 W (Proc.devRef .tc main_v88))]
  dsimp only [hostOps4_3]
  after_results_simp
  simp only [ofBuf_toBuf]
  exact take_read (N := 100000) (M := 99999) rfl (by norm_num) gather_S100000x32_S1000000x1_S1000000x32_1_0_n_n_0_1_132 rfl rfl rfl rfl rfl rfl _ _ _ _ _ _ _ _ _ _ _ _ e h hin.1 hin.2

end Takes

theorem scatter_read {N E K : Nat} (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hivd : d.indexVectorDim = 1)
    (hbz : S_.BroadcastsInDim ⟨2, ![N, K]⟩ ![]) (hbi : (⟨1, ![E]⟩ : Shape).BroadcastsInDim ⟨2, ![E, 1]⟩ ![0])
    (dst : IVec ⟨1, ![E]⟩ 32) (upd : (⟨2, ![E, K]⟩ : Shape).Idx → EReal) (r : Fin N) (q : Fin K) :
    (Host.scatterAdd (F := Ideal) (φ := .f32) d (broadcastInDim ⟨2, ![N, K]⟩ ![] hbz (constant (F := Ideal) S_ .f32 0x00000000#32))
        (broadcastInDim ⟨2, ![E, 1]⟩ ![0] hbi dst) upd : (⟨2, ![N, K]⟩ : Shape).Idx → EReal) (ix2 r q)
      = ∑ e ∈ Cert.Spec.lands N (fun e => dst (ix1 e)) r, upd (ix2 e q) := by

  have hidx : ∀ e : Fin E, broadcastInDim ⟨2, ![E, 1]⟩ ![0] hbi dst (ix2 e (0 : Fin 1)) = dst (ix1 e) := fun e =>
    broadcastInDim_apply ![0] hbi dst (ix2 e (0 : Fin 1)) (ix1 e) (fun a => by
      match a with
      | ⟨0, _⟩ =>
        show e.val = if E = 1 then 0 else e.val
        have := e.isLt
        split <;> omega)
  unfold Host.scatterAdd
  rw [Ideal.hostScatterAdd_def]
  unfold Ideal.hostScatterAdd
  rw [broadcastInDim_scalar_apply, constant_apply, Ideal.ofBits_zero_f32, zero_add]
  unfold Cert.Spec.lands
  have key : ∀ j : (⟨2, ![E, K]⟩ : Shape).Idx, d.resultIdx? j (broadcastInDim ⟨2, ![E, 1]⟩ ![0] hbi dst) = some (ix2 r q) →
      (dst (ix1 (j 0))).toInt = (r.val : Int) ∧ ix2 (j 0) q = j := fun j hj => by
    rw [eq_ix2 j] at hj
    have := (LibRows.scatter_rows_result d huw hiw hsd hivd _ (j 0) (j 1) r q).1 hj
    exact ⟨(congrArg BitVec.toInt (hidx (j 0))).symm.trans this.1, by rw [← this.2]; exact (eq_ix2 j).symm⟩
  exact Finset.sum_nbij' (fun j => j 0) (fun e => ix2 e q)
    (fun j hj => Finset.mem_filter.2 ⟨Finset.mem_univ _, (key j (Finset.mem_filter.1 hj).2).1⟩)
    (fun e he => Finset.mem_filter.2 ⟨Finset.mem_univ _,
      (LibRows.scatter_rows_result d huw hiw hsd hivd _ e q r q).2 ⟨(congrArg BitVec.toInt (hidx e)).trans (Finset.mem_filter.1 he).2, rfl⟩⟩)
    (fun j hj => (key j (Finset.mem_filter.1 hj).2).2) (fun _ _ => rfl)
    (fun j hj => congrArg upd (key j (Finset.mem_filter.1 hj).2).2.symm)

section Scatters

open Idealize.ShloMosaic.StableHlo

theorem scat2_2 (r : Fin 200000) (h : Fin 32) :
    (StableHlo.after hostOps2_2 W (Proc.devRef .tc main_v51) : S200000x32.Idx → EReal) (ix2 r h)
      = ∑ e ∈ Cert.Spec.lands 200000 (fun e => rd_v47 W (ix1 e)) r, rd_v48 W (ix2 e h) := by
  dsimp only [hostOps2_2]
  after_results_simp
  exact scatter_read scatter_S200000x32_S1000000x1_S1000000x32_1_0_0_1 rfl rfl rfl rfl _ _ (rd_v47 W) (rd_v48 W) r h

theorem scat2_4 (r : Fin 200000) (h : Fin 32) :
    (StableHlo.after hostOps2_4 W (Proc.devRef .tc main_v59) : S200000x32.Idx → EReal) (ix2 r h)
      = ∑ e ∈ Cert.Spec.lands 200000 (fun e => rd_v55 W (ix1 e)) r, rd_v56 W (ix2 e h) := by
  dsimp only [hostOps2_4]
  after_results_simp
  exact scatter_read scatter_S200000x32_S1000000x1_S1000000x32_1_0_0_1 rfl rfl rfl rfl _ _ (rd_v55 W) (rd_v56 W) r h

theorem scat2_6 (r : Fin 100000) (h : Fin 32) :
    (StableHlo.after hostOps2_6 W (Proc.devRef .tc main_v67) : S100000x32.Idx → EReal) (ix2 r h)
      = ∑ e ∈ Cert.Spec.lands 100000 (fun e => rd_v63 W (ix1 e)) r, rd_v64 W (ix2 e h) := by
  dsimp only [hostOps2_6]
  after_results_simp
  exact scatter_read scatter_S100000x32_S1000000x1_S1000000x32_1_0_0_1 rfl rfl rfl rfl _ _ (rd_v63 W) (rd_v64 W) r h

theorem scat4_2 (r : Fin 200000) (h : Fin 32) :
    (StableHlo.after hostOps4_2 W (Proc.devRef .tc main_v83) : S200000x32.Idx → EReal) (ix2 r h)
      = ∑ e ∈ Cert.Spec.lands 200000 (fun e => rd_v79 W (ix1 e)) r, rd_v80 W (ix2 e h) := by
  dsimp only [hostOps4_2]
  after_results_simp
  exact scatter_read scatter_S200000x32_S1000000x1_S1000000x32_1_0_0_1 rfl rfl rfl rfl _ _ (rd_v79 W) (rd_v80 W) r h

theorem scat4_4 (r : Fin 200000) (h : Fin 32) :
    (StableHlo.after hostOps4_4 W (Proc.devRef .tc main_v91) : S200000x32.Idx → EReal) (ix2 r h)
      = ∑ e ∈ Cert.Spec.lands 200000 (fun e => rd_v87 W (ix1 e)) r, rd_v88 W (ix2 e h) := by
  dsimp only [hostOps4_4]
  after_results_simp
  exact scatter_read scatter_S200000x32_S1000000x1_S1000000x32_1_0_0_1 rfl rfl rfl rfl _ _ (rd_v87 W) (rd_v88 W) r h

end Scatters

end Cert.KernelIdeal.Host

end
-- ==== Proof.PreFacts.lean ====
import proofs.«417774_j30605936951692_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx
open Cert.Pre_finite_inputs

variable [Cert.Pre_finite_inputs.Facts]

instance : Subsingleton S_.Idx := ⟨fun a b => funext fun d => d.elim0⟩

def AllReal {s : Shape} (x : s.Idx → EReal) : Prop := ∀ i, ∃ r : ℝ, x i = (r : EReal)

def SrcIn (n : Int) (ei : IVec Cert.Pre_finite_inputs.S2x1000000 32) : Prop :=
  ∀ e : Fin 1000000, -n ≤ (ei (ix2 (0 : Fin 2) e)).toInt ∧ (ei (ix2 (0 : Fin 2) e)).toInt < n

structure Dom (a0 : FVec Ideal S200000x128 .f32) (a1 : FVec Ideal S100000x64 .f32) (a2 a3 a4 : IVec S2x1000000 32)
    (a5 : FVec Ideal S128x32 .f32) (a6 : FVec Ideal S32 .f32) (a7 : FVec Ideal S128x32 .f32) (a8 : FVec Ideal S64x32 .f32)
    (a9 : FVec Ideal S32 .f32) (a10 a11 : FVec Ideal S128x32 .f32) (a12 : FVec Ideal S32 .f32) (a13 : FVec Ideal S64x32 .f32)
    (a14 : FVec Ideal S32x32 .f32) (a15 : FVec Ideal S32 .f32) (a16 a17 : FVec Ideal S32x32 .f32) (a18 : FVec Ideal S32 .f32)
    (a19 a20 : FVec Ideal S32x32 .f32) (a21 : FVec Ideal S32 .f32) (a22 : FVec Ideal S32x32 .f32) (a23 : FVec Ideal S32x1 .f32)
    (a24 : FVec Ideal S1 .f32) : Prop where
  r0 : AllReal a0
  r1 : AllReal a1
  r5 : AllReal a5
  r6 : AllReal a6
  r7 : AllReal a7
  r8 : AllReal a8
  r9 : AllReal a9
  r10 : AllReal a10
  r11 : AllReal a11
  r12 : AllReal a12
  r13 : AllReal a13
  r14 : AllReal a14
  r15 : AllReal a15
  r16 : AllReal a16
  r17 : AllReal a17
  r18 : AllReal a18
  r19 : AllReal a19
  r20 : AllReal a20
  r21 : AllReal a21
  r22 : AllReal a22
  r23 : AllReal a23
  r24 : AllReal a24
  src2 : SrcIn 200000 a2
  src3 : SrcIn 100000 a3
  src4 : SrcIn 200000 a4

theorem and_split {s : Shape} (x y : IVec s 1) (i : s.Idx) (h : andi x y i = 1#1) : x i = 1#1 ∧ y i = 1#1 :=
  IntOp.andi_eq_one.1 h

theorem real_of_abs_lt {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have h' : BitVec.ofBool (decide (max (x i) (-(x i)) < Ideal.ofBits .f32 0x7F800000#32)) = 1#1 := h
  have htop : Ideal.ofBits .f32 0x7F800000#32 = (⊤ : EReal) := by simp [Ideal.ofBits, Ideal.ieee]
  rw [htop, StableHlo.Predicate.ofBool_eq_one_iff, decide_eq_true_eq] at h'
  induction hx : x i using EReal.rec with
  | bot => rw [hx] at h'; simp at h'
  | coe r => exact ⟨r, rfl⟩
  | top => rw [hx] at h'; simp at h'

theorem row0_read {α : Type} (ei : S2x1000000.Idx → α) (hs : S2x1000000.Slices ![0, 0] S1x1000000)
    (hc : S1x1000000.ShapeCasts S1000000) (e : Fin 1000000) :
    shapeCast S1000000 (extractStridedSlice S1x1000000 ![0, 0] ei hs) hc (ix1 e) = ei (ix2 (0 : Fin 2) e) := by
  unfold shapeCast extractStridedSlice
  refine congrArg ei (funext fun a => Fin.ext ?_)
  rw [Shape.reshapeEquiv_cons_one]
  match a with
  | ⟨0, _⟩ => rfl
  | ⟨1, _⟩ => show 0 + e.val = e.val; omega

theorem src_of_cmp (lo hi : BitVec 32) (n : Int) (hlo : lo.toInt = -n) (hhi : hi.toInt = n) (ei : IVec S2x1000000 32)
    (hs : S2x1000000.Slices ![0, 0] S1x1000000) (hc : S1x1000000.ShapeCasts S1000000)
    (hb : S_.BroadcastsInDim S1000000 (![] : Fin 0 → Fin S1000000.rank)) (e : Fin 1000000)
    (h : andi (cmpi .sge (shapeCast S1000000 (extractStridedSlice S1x1000000 ![0, 0] ei hs) hc) (broadcastInDim S1000000 ![] hb (constantI S_ 32 lo)))
          (cmpi .slt (shapeCast S1000000 (extractStridedSlice S1x1000000 ![0, 0] ei hs) hc) (broadcastInDim S1000000 ![] hb (constantI S_ 32 hi)))
          (ix1 e) = 1#1) :
    -n ≤ (ei (ix2 (0 : Fin 2) e)).toInt ∧ (ei (ix2 (0 : Fin 2) e)).toInt < n := by
  obtain ⟨h1, h2⟩ := and_split _ _ _ h
  have hr := row0_read ei hs hc e
  have h1' : IntOp.cmpi .sge (ei (ix2 (0 : Fin 2) e)) lo = 1#1 := by rw [← hr]; exact h1
  have h2' : IntOp.cmpi .slt (ei (ix2 (0 : Fin 2) e)) hi = 1#1 := by rw [← hr]; exact h2
  have g1 := IntOp.cmpi_sge.1 h1'
  have g2 := IntOp.cmpi_slt.1 h2'
  rw [hlo] at g1
  rw [hhi] at g2
  exact ⟨g1, g2⟩

theorem dom_of_pre (a0 : FVec Ideal S200000x128 .f32) (a1 : FVec Ideal S100000x64 .f32) (a2 a3 a4 : IVec S2x1000000 32)
    (a5 : FVec Ideal S128x32 .f32) (a6 : FVec Ideal S32 .f32) (a7 : FVec Ideal S128x32 .f32) (a8 : FVec Ideal S64x32 .f32)
    (a9 : FVec Ideal S32 .f32) (a10 a11 : FVec Ideal S128x32 .f32) (a12 : FVec Ideal S32 .f32) (a13 : FVec Ideal S64x32 .f32)
    (a14 : FVec Ideal S32x32 .f32) (a15 : FVec Ideal S32 .f32) (a16 a17 : FVec Ideal S32x32 .f32) (a18 : FVec Ideal S32 .f32)
    (a19 a20 : FVec Ideal S32x32 .f32) (a21 : FVec Ideal S32 .f32) (a22 : FVec Ideal S32x32 .f32) (a23 : FVec Ideal S32x1 .f32)
    (a24 : FVec Ideal S1 .f32)
    (h : Cert.Pre_finite_inputs.fn (F := Ideal) a0 a1 a2 a3 a4 a5 a6 a7 a8 a9 a10 a11 a12 a13 a14 a15 a16 a17 a18 a19 a20 a21 a22 a23 a24 = (fun _ => 1#1)) :
    Dom a0 a1 a2 a3 a4 a5 a6 a7 a8 a9 a10 a11 a12 a13 a14 a15 a16 a17 a18 a19 a20 a21 a22 a23 a24 := by
  have e := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7, Cert.Pre_finite_inputs.fn_part8] at e
  obtain ⟨e, d4⟩ := and_split _ _ _ e
  obtain ⟨e, d3⟩ := and_split _ _ _ e
  obtain ⟨e, d2⟩ := and_split _ _ _ e
  obtain ⟨e, c24⟩ := and_split _ _ _ e
  obtain ⟨e, c23⟩ := and_split _ _ _ e
  obtain ⟨e, c22⟩ := and_split _ _ _ e
  obtain ⟨e, c21⟩ := and_split _ _ _ e
  obtain ⟨e, c20⟩ := and_split _ _ _ e
  obtain ⟨e, c19⟩ := and_split _ _ _ e
  obtain ⟨e, c18⟩ := and_split _ _ _ e
  obtain ⟨e, c17⟩ := and_split _ _ _ e
  obtain ⟨e, c16⟩ := and_split _ _ _ e
  obtain ⟨e, c15⟩ := and_split _ _ _ e
  obtain ⟨e, c14⟩ := and_split _ _ _ e
  obtain ⟨e, c13⟩ := and_split _ _ _ e
  obtain ⟨e, c12⟩ := and_split _ _ _ e
  obtain ⟨e, c11⟩ := and_split _ _ _ e
  obtain ⟨e, c10⟩ := and_split _ _ _ e
  obtain ⟨e, c9⟩ := and_split _ _ _ e
  obtain ⟨e, c8⟩ := and_split _ _ _ e
  obtain ⟨e, c7⟩ := and_split _ _ _ e
  obtain ⟨e, c6⟩ := and_split _ _ _ e
  obtain ⟨e, c5⟩ := and_split _ _ _ e
  obtain ⟨e, c1⟩ := and_split _ _ _ e
  have c0 := e
  exact {
    r0 := fun i => real_of_abs_lt a0 _ i (Host.reduce_andi_all _ _ _ _ ix0 c0 i)
    r1 := fun i => real_of_abs_lt a1 _ i (Host.reduce_andi_all _ _ _ _ ix0 c1 i)
    r5 := fun i => real_of_abs_lt a5 _ i (Host.reduce_andi_all _ _ _ _ ix0 c5 i)
    r6 := fun i => real_of_abs_lt a6 _ i (Host.reduce_andi_all _ _ _ _ ix0 c6 i)
    r7 := fun i => real_of_abs_lt a7 _ i (Host.reduce_andi_all _ _ _ _ ix0 c7 i)
    r8 := fun i => real_of_abs_lt a8 _ i (Host.reduce_andi_all _ _ _ _ ix0 c8 i)
    r9 := fun i => real_of_abs_lt a9 _ i (Host.reduce_andi_all _ _ _ _ ix0 c9 i)
    r10 := fun i => real_of_abs_lt a10 _ i (Host.reduce_andi_all _ _ _ _ ix0 c10 i)
    r11 := fun i => real_of_abs_lt a11 _ i (Host.reduce_andi_all _ _ _ _ ix0 c11 i)
    r12 := fun i => real_of_abs_lt a12 _ i (Host.reduce_andi_all _ _ _ _ ix0 c12 i)
    r13 := fun i => real_of_abs_lt a13 _ i (Host.reduce_andi_all _ _ _ _ ix0 c13 i)
    r14 := fun i => real_of_abs_lt a14 _ i (Host.reduce_andi_all _ _ _ _ ix0 c14 i)
    r15 := fun i => real_of_abs_lt a15 _ i (Host.reduce_andi_all _ _ _ _ ix0 c15 i)
    r16 := fun i => real_of_abs_lt a16 _ i (Host.reduce_andi_all _ _ _ _ ix0 c16 i)
    r17 := fun i => real_of_abs_lt a17 _ i (Host.reduce_andi_all _ _ _ _ ix0 c17 i)
    r18 := fun i => real_of_abs_lt a18 _ i (Host.reduce_andi_all _ _ _ _ ix0 c18 i)
    r19 := fun i => real_of_abs_lt a19 _ i (Host.reduce_andi_all _ _ _ _ ix0 c19 i)
    r20 := fun i => real_of_abs_lt a20 _ i (Host.reduce_andi_all _ _ _ _ ix0 c20 i)
    r21 := fun i => real_of_abs_lt a21 _ i (Host.reduce_andi_all _ _ _ _ ix0 c21 i)
    r22 := fun i => real_of_abs_lt a22 _ i (Host.reduce_andi_all _ _ _ _ ix0 c22 i)
    r23 := fun i => real_of_abs_lt a23 _ i (Host.reduce_andi_all _ _ _ _ ix0 c23 i)
    r24 := fun i => real_of_abs_lt a24 _ i (Host.reduce_andi_all _ _ _ _ ix0 c24 i)
    src2 := fun e => src_of_cmp 4294767296#32 200000#32 200000 (by decide) (by decide) a2 _ _ _ e (Host.reduce_andi_all _ _ _ _ ix0 d2 (ix1 e))
    src3 := fun e => src_of_cmp 4294867296#32 100000#32 100000 (by decide) (by decide) a3 _ _ _ e (Host.reduce_andi_all _ _ _ _ ix0 d3 (ix1 e))
    src4 := fun e => src_of_cmp 4294767296#32 200000#32 200000 (by decide) (by decide) a4 _ _ _ e (Host.reduce_andi_all _ _ _ _ ix0 d4 (ix1 e)) }

end Cert.PreFacts

end
-- ==== Proof.KI.Chain.lean ====
import proofs.«417774_j30605936951692_3_alg».proof.Proof.KI.Run
import proofs.«417774_j30605936951692_3_alg».proof.Proof.KI.Val0
import proofs.«417774_j30605936951692_3_alg».proof.Proof.KI.Val1
import proofs.«417774_j30605936951692_3_alg».proof.Proof.KI.Val2
import proofs.«417774_j30605936951692_3_alg».proof.Proof.KI.Val3
import proofs.«417774_j30605936951692_3_alg».proof.Proof.KI.Val4
import proofs.«417774_j30605936951692_3_alg».proof.Proof.KI.HostLayout
import proofs.«417774_j30605936951692_3_alg».proof.Proof.KI.HostDegrees
import proofs.«417774_j30605936951692_3_alg».proof.Proof.KI.HostEdges
import proofs.«417774_j30605936951692_3_alg».proof.Proof.Spec
import proofs.«417774_j30605936951692_3_alg».proof.Proof.PreFacts

set_option maxRecDepth 16384

noncomputable section

namespace Cert.KernelIdeal.Chain

open Cert.KernelIdeal Cert.KernelIdeal.Gen Cert.KernelIdeal.Frame
open Idealize.ShloMosaic Idealize.ShloMosaic.TcCoe Idealize.SL.Sem Idealize.ShloMosaic.ValueIdx
open Cert.Spec

variable (m : (ℓ : Loc nD τ sig) → Buf (Elt Ideal) ℓ) (ρ : Dev nD → PrngReg) (c : Dev nD)

abbrev inp : Cert.Spec.Inputs :=
  Cert.Spec.ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg23)) (m ((c : Thread nD τ).loc main_arg24))

abbrev DomAt : Prop :=
  Cert.PreFacts.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

abbrev P1 (r : Ref sig .tc) : Prop := r ∉ hostOps0_W
abbrev P2 (r : Ref sig .tc) : Prop := r ∉ [main_v1] ∧ P1 r
abbrev P3 (r : Ref sig .tc) : Prop := r ∉ hostOps1_W ∧ P2 r
abbrev P4 (r : Ref sig .tc) : Prop := r ∉ [main_v5] ∧ P3 r
abbrev P5 (r : Ref sig .tc) : Prop := r ∉ hostOps2_W ∧ P4 r
abbrev P6 (r : Ref sig .tc) : Prop := r ∉ hostOps2_1_W ∧ P5 r
abbrev P7 (r : Ref sig .tc) : Prop := r ∉ hostOps2_2_W ∧ P6 r
abbrev P8 (r : Ref sig .tc) : Prop := r ∉ hostOps2_3_W ∧ P7 r
abbrev P9 (r : Ref sig .tc) : Prop := r ∉ hostOps2_4_W ∧ P8 r
abbrev P10 (r : Ref sig .tc) : Prop := r ∉ hostOps2_5_W ∧ P9 r
abbrev P11 (r : Ref sig .tc) : Prop := r ∉ hostOps2_6_W ∧ P10 r
abbrev P12 (r : Ref sig .tc) : Prop := r ∉ [main_v72] ∧ P11 r
abbrev P13 (r : Ref sig .tc) : Prop := r ∉ hostOps3_W ∧ P12 r
abbrev P14 (r : Ref sig .tc) : Prop := r ∉ [main_v74] ∧ P13 r
abbrev P15 (r : Ref sig .tc) : Prop := r ∉ hostOps4_W ∧ P14 r
abbrev P16 (r : Ref sig .tc) : Prop := r ∉ hostOps4_1_W ∧ P15 r
abbrev P17 (r : Ref sig .tc) : Prop := r ∉ hostOps4_2_W ∧ P16 r
abbrev P18 (r : Ref sig .tc) : Prop := r ∉ hostOps4_3_W ∧ P17 r
abbrev P19 (r : Ref sig .tc) : Prop := r ∉ hostOps4_4_W ∧ P18 r

/-- A reference none of the first `n` items writes holds at boundary `n` what it held at the launch. -/
theorem k1 (r : Ref sig .tc) (h : P1 r) : W1 m ρ c (Proc.devRef .tc r) = W0 m ρ c (Proc.devRef .tc r) := W1_keep m ρ c r h
theorem k2 (r : Ref sig .tc) (h : P2 r) : W2 m ρ c (Proc.devRef .tc r) = W0 m ρ c (Proc.devRef .tc r) :=
  (W2_keep m ρ c r h.1).trans (k1 m ρ c r h.2)
theorem k3 (r : Ref sig .tc) (h : P3 r) : W3 m ρ c (Proc.devRef .tc r) = W0 m ρ c (Proc.devRef .tc r) :=
  (W3_keep m ρ c r h.1).trans (k2 m ρ c r h.2)
theorem k4 (r : Ref sig .tc) (h : P4 r) : W4 m ρ c (Proc.devRef .tc r) = W0 m ρ c (Proc.devRef .tc r) :=
  (W4_keep m ρ c r h.1).trans (k3 m ρ c r h.2)
theorem k5 (r : Ref sig .tc) (h : P5 r) : W5 m ρ c (Proc.devRef .tc r) = W0 m ρ c (Proc.devRef .tc r) :=
  (W5_keep m ρ c r h.1).trans (k4 m ρ c r h.2)
theorem k6 (r : Ref sig .tc) (h : P6 r) : W6 m ρ c (Proc.devRef .tc r) = W0 m ρ c (Proc.devRef .tc r) :=
  (W6_keep m ρ c r h.1).trans (k5 m ρ c r h.2)
theorem k7 (r : Ref sig .tc) (h : P7 r) : W7 m ρ c (Proc.devRef .tc r) = W0 m ρ c (Proc.devRef .tc r) :=
  (W7_keep m ρ c r h.1).trans (k6 m ρ c r h.2)
theorem k8 (r : Ref sig .tc) (h : P8 r) : W8 m ρ c (Proc.devRef .tc r) = W0 m ρ c (Proc.devRef .tc r) :=
  (W8_keep m ρ c r h.1).trans (k7 m ρ c r h.2)
theorem k9 (r : Ref sig .tc) (h : P9 r) : W9 m ρ c (Proc.devRef .tc r) = W0 m ρ c (Proc.devRef .tc r) :=
  (W9_keep m ρ c r h.1).trans (k8 m ρ c r h.2)
theorem k10 (r : Ref sig .tc) (h : P10 r) : W10 m ρ c (Proc.devRef .tc r) = W0 m ρ c (Proc.devRef .tc r) :=
  (W10_keep m ρ c r h.1).trans (k9 m ρ c r h.2)
theorem k11 (r : Ref sig .tc) (h : P11 r) : W11 m ρ c (Proc.devRef .tc r) = W0 m ρ c (Proc.devRef .tc r) :=
  (W11_keep m ρ c r h.1).trans (k10 m ρ c r h.2)
theorem k12 (r : Ref sig .tc) (h : P12 r) : W12 m ρ c (Proc.devRef .tc r) = W0 m ρ c (Proc.devRef .tc r) :=
  (W12_keep m ρ c r h.1).trans (k11 m ρ c r h.2)
theorem k13 (r : Ref sig .tc) (h : P13 r) : W13 m ρ c (Proc.devRef .tc r) = W0 m ρ c (Proc.devRef .tc r) :=
  (W13_keep m ρ c r h.1).trans (k12 m ρ c r h.2)
theorem k14 (r : Ref sig .tc) (h : P14 r) : W14 m ρ c (Proc.devRef .tc r) = W0 m ρ c (Proc.devRef .tc r) :=
  (W14_keep m ρ c r h.1).trans (k13 m ρ c r h.2)
theorem k15 (r : Ref sig .tc) (h : P15 r) : W15 m ρ c (Proc.devRef .tc r) = W0 m ρ c (Proc.devRef .tc r) :=
  (W15_keep m ρ c r h.1).trans (k14 m ρ c r h.2)
theorem k16 (r : Ref sig .tc) (h : P16 r) : W16 m ρ c (Proc.devRef .tc r) = W0 m ρ c (Proc.devRef .tc r) :=
  (W16_keep m ρ c r h.1).trans (k15 m ρ c r h.2)
theorem k17 (r : Ref sig .tc) (h : P17 r) : W17 m ρ c (Proc.devRef .tc r) = W0 m ρ c (Proc.devRef .tc r) :=
  (W17_keep m ρ c r h.1).trans (k16 m ρ c r h.2)
theorem k18 (r : Ref sig .tc) (h : P18 r) : W18 m ρ c (Proc.devRef .tc r) = W0 m ρ c (Proc.devRef .tc r) :=
  (W18_keep m ρ c r h.1).trans (k17 m ρ c r h.2)
theorem k19 (r : Ref sig .tc) (h : P19 r) : W19 m ρ c (Proc.devRef .tc r) = W0 m ρ c (Proc.devRef .tc r) :=
  (W19_keep m ρ c r h.1).trans (k18 m ρ c r h.2)

/-- Region 0's output at a column `j` where the concatenated weights hold column `h` of `B`. -/
theorem c1 {B : Fin 128 → Fin 32 → EReal} (r : Fin 200000) (j : Fin 128) (h : Fin 32)
    (hB : ∀ k, (W1 m ρ c (Proc.devRef .tc main_v0) : S128x128.Idx → EReal) (ix2 k j) = B k h) :
    (W2 m ρ c (Proc.devRef .tc main_v1) : S200000x128.Idx → EReal) (ix2 r j) = mm (inp m c).xp B r h := by
  show @Eq EReal _ _
  have e2 : (W2 m ρ c (Proc.devRef .tc main_v1) : S200000x128.Idx → EReal) = (dat0 (F := Ideal) (V1 m ρ) c).arrAt 2 cfg0.N := W2_arr m ρ c 2
  rw [e2, Val.val0]
  unfold mm
  exact Finset.sum_congr rfl fun k _ => congrArg₂ (fun x y : EReal => x * y) (congrFun (k1 m ρ c main_arg0 (by decide)) (ix2 r k)) (hB k)

/-- Region 1's output, likewise. -/
theorem c2 {B : Fin 64 → Fin 32 → EReal} (r : Fin 100000) (j : Fin 64) (h : Fin 32)
    (hB : ∀ k, (W3 m ρ c (Proc.devRef .tc main_v4) : S64x64.Idx → EReal) (ix2 k j) = B k h) :
    (W4 m ρ c (Proc.devRef .tc main_v5) : S100000x64.Idx → EReal) (ix2 r j) = mm (inp m c).xa B r h := by
  show @Eq EReal _ _
  have e4 : (W4 m ρ c (Proc.devRef .tc main_v5) : S100000x64.Idx → EReal) = (dat1 (F := Ideal) (V3 m ρ) c).arrAt 2 cfg1.N := W4_arr m ρ c 2
  rw [e4, Val.val1]
  unfold mm
  exact Finset.sum_congr rfl fun k _ => congrArg₂ (fun x y : EReal => x * y) (congrFun (k3 m ρ c main_arg1 (by decide)) (ix2 r k)) (hB k)

theorem c3_v2 (r : Fin 200000) (h : Fin 32) :
    (W3 m ρ c (Proc.devRef .tc main_v2) : S200000x32.Idx → EReal) (ix2 r h) = mm (inp m c).xp (inp m c).W1lc r h :=
  (Host.slice_v2 (W2 m ρ c) r h).trans (c1 m ρ c r _ h fun k => Host.wcat1_b0 (W0 m ρ c) k h)

theorem c3_v3 (r : Fin 200000) (h : Fin 32) :
    (W3 m ρ c (Proc.devRef .tc main_v3) : S200000x32.Idx → EReal) (ix2 r h) = mm (inp m c).xp (inp m c).W1lr r h :=
  (Host.slice_v3 (W2 m ρ c) r h).trans (c1 m ρ c r _ h fun k => Host.wcat1_b2 (W0 m ρ c) k h)

theorem c3_v6 (r : Fin 100000) (h : Fin 32) :
    (W5 m ρ c (Proc.devRef .tc main_v6) : S100000x32.Idx → EReal) (ix2 r h) = mm (inp m c).xa (inp m c).W1lw r h :=
  (Host.slice_v6 (W4 m ρ c) r h).trans (c2 m ρ c r _ h fun k =>
    (Host.wcat2_b0 (W2 m ρ c) k h).trans (congrFun (k2 m ρ c main_arg8 (by decide)) (ix2 k h)))

theorem c3_v43_0 (r : Fin 200000) :
    (W5 m ρ c (Proc.devRef .tc main_v43) : S200000x2.Idx → EReal) (ix2 r (0 : Fin 2)) = Ideal.div 1 (max (deg 200000 (inp m c).dc r) 1) := by
  have hA : Host.rd_arg2 (W4 m ρ c) = (m ((c : Thread nD τ).loc main_arg2) : IVec S2x1000000 32) := k4 m ρ c main_arg2 (by decide)
  have h := Host.recip_cw0 (W4 m ρ c) r
  rw [hA] at h
  exact h

theorem c3_v43_1 (r : Fin 200000) :
    (W5 m ρ c (Proc.devRef .tc main_v43) : S200000x2.Idx → EReal) (ix2 r (1 : Fin 2)) = Ideal.div 1 (max (deg 200000 (inp m c).dw r) 1) := by
  have hA : Host.rd_arg3 (W4 m ρ c) = (m ((c : Thread nD τ).loc main_arg3) : IVec S2x1000000 32) := k4 m ρ c main_arg3 (by decide)
  have h := Host.recip_cw1 (W4 m ρ c) r
  rw [hA] at h
  exact h

theorem c3_v42 (r : Fin 100000) :
    (W5 m ρ c (Proc.devRef .tc main_v42) : S100000x1.Idx → EReal) (ix2 r (0 : Fin 1)) = Ideal.div 1 (max (deg 100000 (inp m c).dr r) 1) := by
  have hA : Host.rd_arg4 (W4 m ρ c) = (m ((c : Thread nD τ).loc main_arg4) : IVec S2x1000000 32) := k4 m ρ c main_arg4 (by decide)
  have h := Host.recip_r (W4 m ρ c) r
  rw [hA] at h
  exact h

/-- Rows taken at an edge list's sources and added into a zero table at its destinations are the table's segment sum. -/
theorem segsum_step {N M : Nat} (hM : 0 < M) {n : Int} {a' a : IVec S2x1000000 32} (ha : a' = a) {T : Fin M → Fin 32 → EReal}
    {out : (⟨2, ![N, 32]⟩ : Shape).Idx → EReal} {tab : (⟨2, ![M, 32]⟩ : Shape).Idx → EReal}
    {dstv srcv : IVec S1000000 32} {upd : S1000000x32.Idx → EReal}
    (hS : ∀ r h, out (ix2 r h) = ∑ e ∈ lands N (fun e : Fin 1000000 => dstv (ix1 e)) r, upd (ix2 e h))
    (hdst : ∀ e : Fin 1000000, dstv (ix1 e) = a' (ix2 (1 : Fin 2) e)) (hsrc : ∀ e : Fin 1000000, srcv (ix1 e) = a' (ix2 (0 : Fin 2) e))
    (hT : ∀ (e : Fin 1000000) (h : Fin 32), (-n ≤ (srcv (ix1 e)).toInt ∧ (srcv (ix1 e)).toInt < n) → upd (ix2 e h) = tab (ix2 (srcRow M hM (srcv (ix1 e))) h))
    (hin : ∀ e : Fin 1000000, -n ≤ (a (ix2 (0 : Fin 2) e)).toInt ∧ (a (ix2 (0 : Fin 2) e)).toInt < n)
    (htab : ∀ s h, tab (ix2 s h) = T s h) (r : Fin N) (h : Fin 32) :
    out (ix2 r h) = segsum T (fun e : Fin 1000000 => srcRow M hM (a (ix2 (0 : Fin 2) e))) (fun e => a (ix2 (1 : Fin 2) e)) r h := by
  subst ha
  unfold segsum
  rw [hS, show (fun e : Fin 1000000 => dstv (ix1 e)) = fun e => a' (ix2 (1 : Fin 2) e) from funext hdst]
  exact Finset.sum_congr rfl fun e _ => by rw [hT e h (by rw [hsrc]; exact hin e), hsrc, htab]

theorem c4 (d : DomAt m c) (r : Fin 200000) (h : Fin 32) :
    (W7 m ρ c (Proc.devRef .tc main_v51) : S200000x32.Idx → EReal) (ix2 r h) = segsum (mm (inp m c).xp (inp m c).W1lc) (inp m c).sc (inp m c).dc r h := by
  exact segsum_step (by decide) (k4 m ρ c main_arg2 (by decide)) (Host.scat2_2 (W6 m ρ c))
    (fun e => (congrFun (W6_keep m ρ c main_v47 (by decide)) (ix1 e)).trans (Host.row_v47 (W4 m ρ c) e))
    (Host.row_v45 (W4 m ρ c))
    (Host.take2_1 (W5 m ρ c)) d.src2
    (fun s h => (congrFun ((W5_keep m ρ c main_v2 (by decide)).trans <| (W4_keep m ρ c main_v2 (by decide))) (ix2 s h)).trans (c3_v2 m ρ c s h)) r h

theorem c5 (d : DomAt m c) (r : Fin 200000) (h : Fin 32) :
    (W9 m ρ c (Proc.devRef .tc main_v59) : S200000x32.Idx → EReal) (ix2 r h) = segsum (mm (inp m c).xa (inp m c).W1lw) (inp m c).sw (inp m c).dw r h := by
  exact segsum_step (by decide) (k6 m ρ c main_arg3 (by decide)) (Host.scat2_4 (W8 m ρ c))
    (fun e => (congrFun (W8_keep m ρ c main_v55 (by decide)) (ix1 e)).trans (Host.row_v55 (W6 m ρ c) e))
    (Host.row_v53 (W6 m ρ c))
    (Host.take2_3 (W7 m ρ c)) d.src3
    (fun s h => (congrFun ((W7_keep m ρ c main_v6 (by decide)).trans <| (W6_keep m ρ c main_v6 (by decide))) (ix2 s h)).trans (c3_v6 m ρ c s h)) r h

theorem c6 (d : DomAt m c) (r : Fin 100000) (h : Fin 32) :
    (W11 m ρ c (Proc.devRef .tc main_v67) : S100000x32.Idx → EReal) (ix2 r h) = segsum (mm (inp m c).xp (inp m c).W1lr) (inp m c).sr (inp m c).dr r h := by
  exact segsum_step (by decide) (k8 m ρ c main_arg4 (by decide)) (Host.scat2_6 (W10 m ρ c))
    (fun e => (congrFun (W10_keep m ρ c main_v63 (by decide)) (ix1 e)).trans (Host.row_v63 (W8 m ρ c) e))
    (Host.row_v61 (W8 m ρ c))
    (Host.take2_5 (W9 m ρ c)) d.src4
    (fun s h => (congrFun ((W9_keep m ρ c main_v3 (by decide)).trans <| (W8_keep m ρ c main_v3 (by decide)).trans <| (W7_keep m ρ c main_v3 (by decide)).trans <| (W6_keep m ρ c main_v3 (by decide)).trans <| (W5_keep m ρ c main_v3 (by decide)).trans <| (W4_keep m ρ c main_v3 (by decide))) (ix2 s h)).trans (c3_v3 m ρ c s h)) r h

/-- Region 2's output at a column `j` where the concatenated weights hold column `q` of `B`. -/
theorem c7 {B : Fin 32 → Fin 32 → EReal} (d : DomAt m c) (r : Fin 200000) (j : Fin 96) (q : Fin 32)
    (hB : ∀ h, (W11 m ρ c (Proc.devRef .tc main_v69) : S32x96.Idx → EReal) (ix2 h j) = B h q) :
    (W12 m ρ c (Proc.devRef .tc main_v72) : S200000x96.Idx → EReal) (ix2 r j) = mm (inp m c).p1K B r q := by
  show @Eq EReal _ _
  have e12 : (W12 m ρ c (Proc.devRef .tc main_v72) : S200000x96.Idx → EReal) = (dat2 (F := Ideal) (V11 m ρ) c).arrAt 6 cfg2.N := W12_arr m ρ c 6
  rw [e12, Val.val2]
  unfold mm
  refine Finset.sum_congr rfl fun h _ => congrArg₂ (fun x y : EReal => x * y) ?_ (hB h)
  have a0l : Val.arr2_0 (V11 m ρ) c (ix2 r (⟨h.val, by have := h.isLt; omega⟩ : Fin 64)) = _ :=
    (Host.cat_v68_b0 (W10 m ρ c) r h).trans ((congrFun ((W10_keep m ρ c main_v51 (by decide)).trans <| (W9_keep m ρ c main_v51 (by decide)).trans <| (W8_keep m ρ c main_v51 (by decide))) (ix2 r h)).trans (c4 m ρ c d r h))
  have a0r : Val.arr2_0 (V11 m ρ) c (ix2 r (⟨32 + h.val, by have := h.isLt; omega⟩ : Fin 64)) = _ :=
    (Host.cat_v68_b1 (W10 m ρ c) r h).trans ((congrFun (W10_keep m ρ c main_v59 (by decide)) (ix2 r h)).trans (c5 m ρ c d r h))
  have a1l : Val.arr2_1 (V11 m ρ) c (ix2 r (0 : Fin 2)) = _ :=
    (congrFun ((W11_keep m ρ c main_v43 (by decide)).trans <| (W10_keep m ρ c main_v43 (by decide)).trans <| (W9_keep m ρ c main_v43 (by decide)).trans <| (W8_keep m ρ c main_v43 (by decide)).trans <| (W7_keep m ρ c main_v43 (by decide)).trans <| (W6_keep m ρ c main_v43 (by decide))) (ix2 r (0 : Fin 2))).trans (c3_v43_0 m ρ c r)
  have a1r : Val.arr2_1 (V11 m ρ) c (ix2 r (1 : Fin 2)) = _ :=
    (congrFun ((W11_keep m ρ c main_v43 (by decide)).trans <| (W10_keep m ρ c main_v43 (by decide)).trans <| (W9_keep m ρ c main_v43 (by decide)).trans <| (W8_keep m ρ c main_v43 (by decide)).trans <| (W7_keep m ρ c main_v43 (by decide)).trans <| (W6_keep m ρ c main_v43 (by decide))) (ix2 r (1 : Fin 2))).trans (c3_v43_1 m ρ c r)
  have a3 : Val.arr2_3 (V11 m ρ) c (ix2 (0 : Fin 1) h) = _ :=
    (Host.bias_v70 (W10 m ρ c) h).trans (congrFun (k10 m ρ c main_arg6 (by decide)) (ix1 h))
  have a4 : Val.arr2_4 (V11 m ρ) c (ix2 (0 : Fin 1) h) = _ :=
    (Host.bias_v71 (W10 m ρ c) h).trans (congrFun (k10 m ρ c main_arg9 (by decide)) (ix1 h))
  have a2l : Val.arr2_2 (V11 m ρ) c (ix2 r (⟨32 + h.val, by have := h.isLt; omega⟩ : Fin 128)) = mm (inp m c).xp (inp m c).W1rc r h :=
    (congrFun ((W11_keep m ρ c main_v1 (by decide)).trans <| (W10_keep m ρ c main_v1 (by decide)).trans <| (W9_keep m ρ c main_v1 (by decide)).trans <| (W8_keep m ρ c main_v1 (by decide)).trans <| (W7_keep m ρ c main_v1 (by decide)).trans <| (W6_keep m ρ c main_v1 (by decide)).trans <| (W5_keep m ρ c main_v1 (by decide)).trans <| (W4_keep m ρ c main_v1 (by decide)).trans <| (W3_keep m ρ c main_v1 (by decide))) (ix2 r (⟨32 + h.val, by have := h.isLt; omega⟩ : Fin 128))).trans (c1 m ρ c r _ h fun k => Host.wcat1_b1 (W0 m ρ c) k h)
  have a2r : Val.arr2_2 (V11 m ρ) c (ix2 r (⟨96 + h.val, by have := h.isLt; omega⟩ : Fin 128)) = mm (inp m c).xp (inp m c).W1rw r h :=
    (congrFun ((W11_keep m ρ c main_v1 (by decide)).trans <| (W10_keep m ρ c main_v1 (by decide)).trans <| (W9_keep m ρ c main_v1 (by decide)).trans <| (W8_keep m ρ c main_v1 (by decide)).trans <| (W7_keep m ρ c main_v1 (by decide)).trans <| (W6_keep m ρ c main_v1 (by decide)).trans <| (W5_keep m ρ c main_v1 (by decide)).trans <| (W4_keep m ρ c main_v1 (by decide)).trans <| (W3_keep m ρ c main_v1 (by decide))) (ix2 r (⟨96 + h.val, by have := h.isLt; omega⟩ : Fin 128))).trans (c1 m ρ c r _ h fun k => Host.wcat1_b3 (W0 m ρ c) k h)
  unfold Val.p1Of Inputs.p1K sageK
  rw [a0l, a0r, a1l, a1r, a3, a4, a2l, a2r]
  rfl

theorem c8 (d : DomAt m c) (r : Fin 100000) (j : Fin 32) :
    (W14 m ρ c (Proc.devRef .tc main_v74) : S100000x32.Idx → EReal) (ix2 r j) = mm (inp m c).a1K (inp m c).W2lw r j := by
  show @Eq EReal _ _
  have e14 : (W14 m ρ c (Proc.devRef .tc main_v74) : S100000x32.Idx → EReal) = (dat3 (F := Ideal) (V13 m ρ) c).arrAt 5 cfg3.N := W14_arr m ρ c 5
  rw [e14, Val.val3]
  unfold mm
  refine Finset.sum_congr rfl fun h _ => congrArg₂ (fun x y : EReal => x * y) ?_ (congrFun (k13 m ρ c main_arg17 (by decide)) (ix2 h j))
  have A0 : Val.arr3_0 (V13 m ρ) c (ix2 r h) = _ :=
    (congrFun ((W13_keep m ρ c main_v67 (by decide)).trans <| (W12_keep m ρ c main_v67 (by decide))) (ix2 r h)).trans (c6 m ρ c d r h)
  have A1 : Val.arr3_1 (V13 m ρ) c (ix2 r (0 : Fin 1)) = _ :=
    (congrFun ((W13_keep m ρ c main_v42 (by decide)).trans <| (W12_keep m ρ c main_v42 (by decide)).trans <| (W11_keep m ρ c main_v42 (by decide)).trans <| (W10_keep m ρ c main_v42 (by decide)).trans <| (W9_keep m ρ c main_v42 (by decide)).trans <| (W8_keep m ρ c main_v42 (by decide)).trans <| (W7_keep m ρ c main_v42 (by decide)).trans <| (W6_keep m ρ c main_v42 (by decide))) (ix2 r (0 : Fin 1))).trans (c3_v42 m ρ c r)
  have A3 : Val.arr3_3 (V13 m ρ) c (ix2 (0 : Fin 1) h) = _ :=
    (Host.bias_v73 (W12 m ρ c) h).trans (congrFun (k12 m ρ c main_arg12 (by decide)) (ix1 h))
  have A2 : Val.arr3_2 (V13 m ρ) c (ix2 r (⟨32 + h.val, by omega⟩ : Fin 64)) = mm (inp m c).xa (inp m c).W1rr r h :=
    (congrFun ((W13_keep m ρ c main_v5 (by decide)).trans <| (W12_keep m ρ c main_v5 (by decide)).trans <| (W11_keep m ρ c main_v5 (by decide)).trans <| (W10_keep m ρ c main_v5 (by decide)).trans <| (W9_keep m ρ c main_v5 (by decide)).trans <| (W8_keep m ρ c main_v5 (by decide)).trans <| (W7_keep m ρ c main_v5 (by decide)).trans <| (W6_keep m ρ c main_v5 (by decide)).trans <| (W5_keep m ρ c main_v5 (by decide))) (ix2 r (⟨32 + h.val, by have := h.isLt; omega⟩ : Fin 64))).trans (c2 m ρ c r _ h fun k =>
      (Host.wcat2_b1 (W2 m ρ c) k h).trans (congrFun (k2 m ρ c main_arg13 (by decide)) (ix2 k h)))
  unfold Val.a1Of Inputs.a1K sageK
  rw [A0, A1, A3, A2]
  rfl

theorem c9_v75 (d : DomAt m c) (r : Fin 200000) (h : Fin 32) :
    (W15 m ρ c (Proc.devRef .tc main_v75) : S200000x32.Idx → EReal) (ix2 r h) = mm (inp m c).p1K (inp m c).W2lc r h :=
  (Host.slice_v75 (W14 m ρ c) r h).trans ((congrFun ((W14_keep m ρ c main_v72 (by decide)).trans <| (W13_keep m ρ c main_v72 (by decide))) (ix2 r (⟨h.val, by have := h.isLt; omega⟩ : Fin 96))).trans (c7 m ρ c d r _ h fun k =>
    (Host.wcat3_b0 (W10 m ρ c) k h).trans (congrFun (k10 m ρ c main_arg14 (by decide)) (ix2 k h))))

theorem c9_v83 (d : DomAt m c) (r : Fin 200000) (h : Fin 32) :
    (W17 m ρ c (Proc.devRef .tc main_v83) : S200000x32.Idx → EReal) (ix2 r h) = segsum (mm (inp m c).p1K (inp m c).W2lc) (inp m c).sc (inp m c).dc r h := by
  exact segsum_step (by decide) (k14 m ρ c main_arg2 (by decide)) (Host.scat4_2 (W16 m ρ c))
    (fun e => (congrFun (W16_keep m ρ c main_v79 (by decide)) (ix1 e)).trans (Host.row_v79 (W14 m ρ c) e))
    (Host.row_v77 (W14 m ρ c))
    (Host.take4_1 (W15 m ρ c)) d.src2
    (fun s h => c9_v75 m ρ c d s h) r h

theorem c9_v91 (d : DomAt m c) (r : Fin 200000) (h : Fin 32) :
    (W19 m ρ c (Proc.devRef .tc main_v91) : S200000x32.Idx → EReal) (ix2 r h) = segsum (mm (inp m c).a1K (inp m c).W2lw) (inp m c).sw (inp m c).dw r h := by
  exact segsum_step (by decide) (k16 m ρ c main_arg3 (by decide)) (Host.scat4_4 (W18 m ρ c))
    (fun e => (congrFun (W18_keep m ρ c main_v87 (by decide)) (ix1 e)).trans (Host.row_v87 (W16 m ρ c) e))
    (Host.row_v85 (W16 m ρ c))
    (Host.take4_3 (W17 m ρ c)) d.src3
    (fun s h => (congrFun ((W17_keep m ρ c main_v74 (by decide)).trans <| (W16_keep m ρ c main_v74 (by decide)).trans <| (W15_keep m ρ c main_v74 (by decide))) (ix2 s h)).trans (c8 m ρ c d s h)) r h

theorem kernel_value (d : DomAt m c) (r : Fin 200000) (j : Fin 1) :
    (W20 m ρ c (Proc.devRef .tc main_v96) : S200000x1.Idx → EReal) (ix2 r j) = (inp m c).outK r j := by
  show @Eq EReal _ _
  have e20 : (W20 m ρ c (Proc.devRef .tc main_v96) : S200000x1.Idx → EReal) = (dat4 (F := Ideal) (V19 m ρ) c).arrAt 7 cfg4.N := W20_arr m ρ c 7
  rw [e20, Val.val4]
  unfold Inputs.outK mm
  have hb : Val.arr4_6 (V19 m ρ) c (ix2 (0 : Fin 1) j) = (inp m c).bh j :=
    (Host.bias_v95 (W18 m ρ c) j).trans (congrFun (k18 m ρ c main_arg24 (by decide)) (ix1 j))
  rw [hb]
  refine congrArg (fun x => x + (inp m c).bh j) (Finset.sum_congr rfl fun h _ => congrArg₂ (fun x y : EReal => x * y) ?_ (congrFun (k19 m ρ c main_arg23 (by decide)) (ix2 h j)))
  have b0l : Val.arr4_0 (V19 m ρ) c (ix2 r (⟨h.val, by have := h.isLt; omega⟩ : Fin 64)) = _ :=
    (Host.cat_v92_b0 (W18 m ρ c) r h).trans ((congrFun (W18_keep m ρ c main_v83 (by decide)) (ix2 r h)).trans (c9_v83 m ρ c d r h))
  have b0r : Val.arr4_0 (V19 m ρ) c (ix2 r (⟨32 + h.val, by have := h.isLt; omega⟩ : Fin 64)) = _ :=
    (Host.cat_v92_b1 (W18 m ρ c) r h).trans (c9_v91 m ρ c d r h)
  have b1l : Val.arr4_1 (V19 m ρ) c (ix2 r (0 : Fin 2)) = _ :=
    (congrFun ((W19_keep m ρ c main_v43 (by decide)).trans <| (W18_keep m ρ c main_v43 (by decide)).trans <| (W17_keep m ρ c main_v43 (by decide)).trans <| (W16_keep m ρ c main_v43 (by decide)).trans <| (W15_keep m ρ c main_v43 (by decide)).trans <| (W14_keep m ρ c main_v43 (by decide)).trans <| (W13_keep m ρ c main_v43 (by decide)).trans <| (W12_keep m ρ c main_v43 (by decide)).trans <| (W11_keep m ρ c main_v43 (by decide)).trans <| (W10_keep m ρ c main_v43 (by decide)).trans <| (W9_keep m ρ c main_v43 (by decide)).trans <| (W8_keep m ρ c main_v43 (by decide)).trans <| (W7_keep m ρ c main_v43 (by decide)).trans <| (W6_keep m ρ c main_v43 (by decide))) (ix2 r (0 : Fin 2))).trans (c3_v43_0 m ρ c r)
  have b1r : Val.arr4_1 (V19 m ρ) c (ix2 r (1 : Fin 2)) = _ :=
    (congrFun ((W19_keep m ρ c main_v43 (by decide)).trans <| (W18_keep m ρ c main_v43 (by decide)).trans <| (W17_keep m ρ c main_v43 (by decide)).trans <| (W16_keep m ρ c main_v43 (by decide)).trans <| (W15_keep m ρ c main_v43 (by decide)).trans <| (W14_keep m ρ c main_v43 (by decide)).trans <| (W13_keep m ρ c main_v43 (by decide)).trans <| (W12_keep m ρ c main_v43 (by decide)).trans <| (W11_keep m ρ c main_v43 (by decide)).trans <| (W10_keep m ρ c main_v43 (by decide)).trans <| (W9_keep m ρ c main_v43 (by decide)).trans <| (W8_keep m ρ c main_v43 (by decide)).trans <| (W7_keep m ρ c main_v43 (by decide)).trans <| (W6_keep m ρ c main_v43 (by decide))) (ix2 r (1 : Fin 2))).trans (c3_v43_1 m ρ c r)
  have b3 : Val.arr4_3 (V19 m ρ) c (ix2 (0 : Fin 1) h) = _ :=
    (Host.bias_v93 (W18 m ρ c) h).trans (congrFun (k18 m ρ c main_arg15 (by decide)) (ix1 h))
  have b4 : Val.arr4_4 (V19 m ρ) c (ix2 (0 : Fin 1) h) = _ :=
    (Host.bias_v94 (W18 m ρ c) h).trans (congrFun (k18 m ρ c main_arg18 (by decide)) (ix1 h))
  have b2l : Val.arr4_2 (V19 m ρ) c (ix2 r (⟨32 + h.val, by have := h.isLt; omega⟩ : Fin 96)) = mm (inp m c).p1K (inp m c).W2rc r h :=
    (congrFun ((W19_keep m ρ c main_v72 (by decide)).trans <| (W18_keep m ρ c main_v72 (by decide)).trans <| (W17_keep m ρ c main_v72 (by decide)).trans <| (W16_keep m ρ c main_v72 (by decide)).trans <| (W15_keep m ρ c main_v72 (by decide)).trans <| (W14_keep m ρ c main_v72 (by decide)).trans <| (W13_keep m ρ c main_v72 (by decide))) (ix2 r (⟨32 + h.val, by have := h.isLt; omega⟩ : Fin 96))).trans (c7 m ρ c d r _ h fun k =>
      (Host.wcat3_b1 (W10 m ρ c) k h).trans (congrFun (k10 m ρ c main_arg16 (by decide)) (ix2 k h)))
  have b2r : Val.arr4_2 (V19 m ρ) c (ix2 r (⟨64 + h.val, by have := h.isLt; omega⟩ : Fin 96)) = mm (inp m c).p1K (inp m c).W2rw r h :=
    (congrFun ((W19_keep m ρ c main_v72 (by decide)).trans <| (W18_keep m ρ c main_v72 (by decide)).trans <| (W17_keep m ρ c main_v72 (by decide)).trans <| (W16_keep m ρ c main_v72 (by decide)).trans <| (W15_keep m ρ c main_v72 (by decide)).trans <| (W14_keep m ρ c main_v72 (by decide)).trans <| (W13_keep m ρ c main_v72 (by decide))) (ix2 r (⟨64 + h.val, by have := h.isLt; omega⟩ : Fin 96))).trans (c7 m ρ c d r _ h fun k =>
      (Host.wcat3_b2 (W10 m ρ c) k h).trans (congrFun (k10 m ρ c main_arg19 (by decide)) (ix2 k h)))
  unfold Val.p2Of Inputs.p2K sageK
  rw [b0l, b0r, b1l, b1r, b3, b4, b2l, b2r]
  rfl

end Cert.KernelIdeal.Chain

end
-- ==== Proof.Ref.Layer1.lean ====
import proofs.«417774_j30605936951692_3_alg».proof.Proof.Gen.ReferenceIdeal.Read
import proofs.«417774_j30605936951692_3_alg».proof.Proof.Spec
import proofs.«417774_j30605936951692_3_alg».proof.Proof.LibRows
import Idealize.ShloMosaic.PureOps.Ideal
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Read Idealize.ShloMosaic Idealize.ShloMosaic.ValueIdx

section Generic

theorem scatter_rank1_result {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (idx : IVec ⟨2, ![E, 1]⟩ w) (e : Fin E) (r : Fin N) :
    d.resultIdx? (ix1 e) idx = some (ix1 r) ↔ (idx (ix2 e (0 : Fin 1))).toInt = (r.val : Int) := by
  have hin0 : (0 : Fin 1) ∈ d.scatterDimsToOperandDims := by rw [hsd]; exact List.mem_singleton.mpr rfl
  have hk0 : (0 : Fin 1) ∉ d.sKept := by
    show (0 : Fin 1) ∉ Shape.kept _ d.insertedWindowDims
    rw [hiw]; simp [Shape.kept]

  have c0 : ∀ a : Fin 1, ((ix1 e) a).val = e.val := fun a => match a with | ⟨0, _⟩ => rfl
  have hs0 : d.start (ix1 e) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg hk0]
  have hr := r.isLt
  unfold ScatterDims.resultIdx?
  split
  · next h =>
    rw [Option.some.injEq]
    constructor
    · intro heq
      have h0 : (d.start (ix1 e) idx 0 + d.window (ix1 e) 0).toNat = r.val := congrArg (fun f => (f 0).val) heq
      have hh0 := (h 0).1
      rw [hs0, hw0] at h0 hh0
      omega
    · intro hr'
      funext a
      match a with
      | ⟨0, _⟩ =>
        apply Fin.ext
        show (d.start (ix1 e) idx 0 + d.window (ix1 e) 0).toNat = r.val
        rw [hs0, hw0, hr']; omega
  · next h =>
    constructor
    · intro heq; exact absurd heq (by simp)
    · intro hr'
      exfalso; apply h
      intro a
      match a with
      | ⟨0, _⟩ =>
        show 0 ≤ d.start (ix1 e) idx 0 + d.window (ix1 e) 0 ∧ d.start (ix1 e) idx 0 + d.window (ix1 e) 0 < (N : Int)
        rw [hs0, hw0, hr']; omega

theorem segsum_of_gather_scatter {N M E K : Nat} (hM : 0 < M)
    (g : GatherDims ⟨2, ![M, K]⟩ ⟨2, ![E, 1]⟩ ⟨2, ![E, K]⟩)
    (hoff : g.offsetDims = [1]) (hcoll : g.collapsedSliceDims = [0]) (hob : g.operandBatchingDims = [])
    (hsb : g.startIndicesBatchingDims = []) (hsim : g.startIndexMap = [0]) (hgiv : g.indexVectorDim = 1)
    (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hdiv : d.indexVectorDim = 1)
    (z : (⟨2, ![N, K]⟩ : Shape).Idx → EReal) (hz : ∀ i, z i = 0)
    (x : (⟨2, ![M, K]⟩ : Shape).Idx → EReal)
    (sidx didx : IVec ⟨2, ![E, 1]⟩ 32) (src dst : Fin E → BitVec 32)
    (hsrc : ∀ e, sidx (ix2 e (0 : Fin 1)) = Cert.Spec.wrap (BitVec.ofNat 32 M) (src e))
    (hdst : ∀ e, didx (ix2 e (0 : Fin 1)) = dst e)
    (r : Fin N) (k : Fin K) :
    Host.scatterAdd (F := Ideal) (φ := .f32) d z didx (Host.gather g x sidx) (ix2 r k)
      = Cert.Spec.segsum (fun m q => x (ix2 m q)) (fun e => Cert.Spec.srcRow M hM (src e)) dst r k := by
  show Ideal.hostScatterAdd d z didx (Host.gather g x sidx) (ix2 r k) = _
  unfold Ideal.hostScatterAdd Cert.Spec.segsum Cert.Spec.lands
  rw [hz, zero_add, Finset.sum_filter, Finset.sum_filter, sum_idx2]
  refine Finset.sum_congr rfl fun e _ => ?_

  refine (Finset.sum_congr rfl (g := fun q => if q = k then
      (if (dst e).toInt = (r.val : Int) then x (ix2 (Cert.Spec.srcRow M hM (src e)) k) else 0) else 0) fun q _ => ?_).trans ?_
  · have hres := Cert.LibRows.scatter_rows_result d huw hiw hsd hdiv didx e q r k
    rw [hdst] at hres
    by_cases hq : q = k
    · subst hq
      rw [if_pos rfl]
      by_cases hA : (dst e).toInt = (r.val : Int)
      · rw [if_pos hA, if_pos (hres.2 ⟨hA, rfl⟩),
          Cert.LibRows.gather_rows_apply hM g hoff hcoll hob hsb hsim hgiv x sidx e q, hsrc]
        rfl
      · rw [if_neg hA, if_neg (fun h => hA (hres.1 h).1)]
    · rw [if_neg hq, if_neg (fun h => hq (hres.1 h).2)]
  · rw [Finset.sum_ite_eq' Finset.univ k, if_pos (Finset.mem_univ _)]

theorem deg_of_ones_scatter {N E : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hdiv : d.indexVectorDim = 1)
    (z : (⟨1, ![N]⟩ : Shape).Idx → EReal) (hz : ∀ i, z i = 0)
    (u : (⟨1, ![E]⟩ : Shape).Idx → EReal) (hu : ∀ j, u j = 1)
    (didx : IVec ⟨2, ![E, 1]⟩ 32) (dst : Fin E → BitVec 32)
    (hdst : ∀ e, didx (ix2 e (0 : Fin 1)) = dst e) (r : Fin N) :
    Host.scatterAdd (F := Ideal) (φ := .f32) d z didx u (ix1 r) = Cert.Spec.deg N dst r := by
  show Ideal.hostScatterAdd d z didx u (ix1 r) = _
  unfold Ideal.hostScatterAdd Cert.Spec.deg
  rw [hz, zero_add, Finset.sum_congr rfl (fun j _ => hu j), Finset.sum_const, nsmul_one, EReal.coe_natCast]
  refine congrArg (Nat.cast : ℕ → EReal) ?_
  symm

  refine Finset.card_bij (fun e _ => ix1 e) (fun e he => ?_) (fun e _ e' _ h => ?_) (fun j hj => ?_)
  · rw [Finset.mem_filter]
    refine ⟨Finset.mem_univ _, (scatter_rank1_result d huw hiw hsd hdiv didx e r).2 ?_⟩
    rw [hdst]
    exact (Finset.mem_filter.1 he).2
  · exact congrFun h 0
  · obtain ⟨e, rfl⟩ : ∃ e : Fin E, j = ix1 e := ⟨j 0, eq_ix1 j⟩
    refine ⟨e, ?_, rfl⟩
    have := (scatter_rank1_result d huw hiw hsd hdiv didx e r).1 (Finset.mem_filter.1 hj).2
    rw [hdst] at this
    exact Finset.mem_filter.2 ⟨Finset.mem_univ _, this⟩

end Generic

variable (x0 : (⟨S200000x128, .f32⟩ : BufTy).Contents (Elt Ideal)) (x1 : (⟨S100000x64, .f32⟩ : BufTy).Contents (Elt Ideal))
  (x2 x3 x4 : (⟨S2x1000000, .i32⟩ : BufTy).Contents (Elt Ideal))
  (x5 : (⟨S128x32, .f32⟩ : BufTy).Contents (Elt Ideal)) (x6 : (⟨S32, .f32⟩ : BufTy).Contents (Elt Ideal))
  (x7 : (⟨S128x32, .f32⟩ : BufTy).Contents (Elt Ideal)) (x8 : (⟨S64x32, .f32⟩ : BufTy).Contents (Elt Ideal))
  (x9 : (⟨S32, .f32⟩ : BufTy).Contents (Elt Ideal)) (x10 x11 : (⟨S128x32, .f32⟩ : BufTy).Contents (Elt Ideal))
  (x12 : (⟨S32, .f32⟩ : BufTy).Contents (Elt Ideal)) (x13 : (⟨S64x32, .f32⟩ : BufTy).Contents (Elt Ideal))
  (x14 : (⟨S32x32, .f32⟩ : BufTy).Contents (Elt Ideal)) (x15 : (⟨S32, .f32⟩ : BufTy).Contents (Elt Ideal))
  (x16 x17 : (⟨S32x32, .f32⟩ : BufTy).Contents (Elt Ideal)) (x18 : (⟨S32, .f32⟩ : BufTy).Contents (Elt Ideal))
  (x19 : (⟨S32x32, .f32⟩ : BufTy).Contents (Elt Ideal)) (x23 : (⟨S32x1, .f32⟩ : BufTy).Contents (Elt Ideal))
  (x24 : (⟨S1, .f32⟩ : BufTy).Contents (Elt Ideal))

/-- The source column is the edge list's row 0, a negative index counted from the table's end; an edge number is its own residue. -/
theorem src_cites1 (e : Fin 1000000) :
    val_main_v9 (F := Ideal) x2 (ix2 e (0 : Fin 1)) = Cert.Spec.wrap (BitVec.ofNat 32 200000) (x2 (ix2 (0 : Fin 2) e)) := by
  rw [val_main_v9_apply, val_main_v8_apply, val_main_v5_apply, val_main_v7_apply, val_main_v1_apply, val_main_v0_apply,
    val_main_v4_apply, val_main_c_apply, val_main_v6_apply, val_main_c_0_apply,
    show idx_main_v0 (idx_main_v1 (idx_main_v9 (ix2 e (0 : Fin 1)))) = ix2 (0 : Fin 2) e from
      (eq_ix2 _).trans (congrArg (ix2 _) (Fin.ext (Nat.mod_eq_of_lt e.isLt)))]
  rfl

/-- The destination column is the edge list's row 1; both scatters of a relation read it through the same broadcast. -/
theorem dst_cites1 (e : Fin 1000000) : val_main_v12 (F := Ideal) x2 (ix2 e (0 : Fin 1)) = x2 (ix2 (1 : Fin 2) e) := by
  rw [val_main_v12_apply, val_main_v3_apply, val_main_v2_apply]
  exact congrArg x2 ((eq_ix2 _).trans (congrArg (ix2 _) (Fin.ext (Nat.mod_eq_of_lt e.isLt))))

/-- The in-degree: the count scatter adds one at every edge's destination. -/
theorem deg_cites1 (r : Fin 200000) :
    val_main_v17 (F := Ideal) x2 (ix1 r) = Cert.Spec.deg 200000 (fun e => x2 (ix2 (1 : Fin 2) e)) r := by
  unfold val_main_v17
  exact deg_of_ones_scatter scatter_S200000_S1000000x1_S1000000_n_0_0_1 rfl rfl rfl rfl (val_main_v15 (F := Ideal))
    (fun i => by rw [val_main_v15_apply, val_main_cst_2_apply]; exact Ideal.ofBits_zero_f32)
    (val_main_v14 (F := Ideal)) (fun j => by rw [val_main_v14_apply, val_main_cst_1_apply]; exact Ideal.ofBits_one_f32)
    (val_main_v16 (F := Ideal) x2) _ (dst_cites1 x2) r

/-- The neighbours' mean: the segment sum of the gathered rows over max(in-degree, 1). -/
theorem mean_cites1 (r : Fin 200000) (k : Fin 128) :
    val_main_v22 (F := Ideal) x0 x2 (ix2 r k)
      = Ideal.div (Cert.Spec.segsum (fun m q => x0 (ix2 m q)) (fun e => Cert.Spec.srcRow 200000 (by decide) (x2 (ix2 (0 : Fin 2) e)))
          (fun e => x2 (ix2 (1 : Fin 2) e)) r k) (max (Cert.Spec.deg 200000 (fun e => x2 (ix2 (1 : Fin 2) e)) r) 1) := by
  rw [val_main_v22_apply, val_main_v21_apply, val_main_v20_apply, val_main_v19_apply, val_main_v18_apply, val_main_cst_3_apply,
    show idx_main_v20 (idx_main_v21 (ix2 r k)) = ix1 r from eq_ix1 _]
  unfold val_main_v13 val_main_v10
  rw [segsum_of_gather_scatter (by decide) gather_S200000x128_S1000000x1_S1000000x128_1_0_n_n_0_1_1128 rfl rfl rfl rfl rfl rfl
      scatter_S200000x128_S1000000x1_S1000000x128_1_0_0_1 rfl rfl rfl rfl (val_main_v11 (F := Ideal))
      (fun i => by rw [val_main_v11_apply, val_main_cst_apply]; exact Ideal.ofBits_zero_f32) x0
      (val_main_v9 (F := Ideal) x2) (val_main_v12 (F := Ideal) x2) _ _
      (src_cites1 x2) (dst_cites1 x2) r k,
    deg_cites1, Ideal.ofBits_def, Ideal.ofBits_one_f32]
  rfl

/-- One layer: the mean times the neighbour weights, plus the bias, plus the destination's own row times the root weights. -/
theorem sage_cites1 (r : Fin 200000) (h : Fin 32) :
    val_main_v28 (F := Ideal) x0 x2 x5 x6 x7 (ix2 r h)
      = Cert.Spec.sageR (fun m k => x0 (ix2 m k)) (fun m k => x0 (ix2 m k))
          (fun e => Cert.Spec.srcRow 200000 (by decide) (x2 (ix2 (0 : Fin 2) e))) (fun e => x2 (ix2 (1 : Fin 2) e))
          (fun k j => x5 (ix2 k j)) (fun j => x6 (ix1 j)) (fun k j => x7 (ix2 k j)) r h := by
  rw [val_main_v28_apply, val_main_v26_apply, val_main_v23_apply, val_main_v25_apply, val_main_v24_apply, val_main_v27_apply,
    show idx_main_v24 (idx_main_v25 (ix2 r h)) = ix1 h from eq_ix1 _]
  simp only [show ∀ k, lidx_main_v23 (ix2 r h) k = ix2 r k from fun _ => eq_ix2 _,
    show ∀ k, ridx_main_v23 (ix2 r h) k = ix2 k h from fun _ => eq_ix2 _,
    show ∀ k, lidx_main_v27 (ix2 r h) k = ix2 r k from fun _ => eq_ix2 _,
    show ∀ k, ridx_main_v27 (ix2 r h) k = ix2 k h from fun _ => eq_ix2 _, mean_cites1]
  rfl

theorem src_writes1 (e : Fin 1000000) :
    val_main_v38 (F := Ideal) x3 (ix2 e (0 : Fin 1)) = Cert.Spec.wrap (BitVec.ofNat 32 100000) (x3 (ix2 (0 : Fin 2) e)) := by
  rw [val_main_v38_apply, val_main_v37_apply, val_main_v34_apply, val_main_v36_apply, val_main_v30_apply, val_main_v29_apply,
    val_main_v33_apply, val_main_c_4_apply, val_main_v35_apply, val_main_c_5_apply,
    show idx_main_v29 (idx_main_v30 (idx_main_v38 (ix2 e (0 : Fin 1)))) = ix2 (0 : Fin 2) e from
      (eq_ix2 _).trans (congrArg (ix2 _) (Fin.ext (Nat.mod_eq_of_lt e.isLt)))]
  rfl

theorem dst_writes1 (e : Fin 1000000) : val_main_v41 (F := Ideal) x3 (ix2 e (0 : Fin 1)) = x3 (ix2 (1 : Fin 2) e) := by
  rw [val_main_v41_apply, val_main_v32_apply, val_main_v31_apply]
  exact congrArg x3 ((eq_ix2 _).trans (congrArg (ix2 _) (Fin.ext (Nat.mod_eq_of_lt e.isLt))))

theorem deg_writes1 (r : Fin 200000) :
    val_main_v46 (F := Ideal) x3 (ix1 r) = Cert.Spec.deg 200000 (fun e => x3 (ix2 (1 : Fin 2) e)) r := by
  unfold val_main_v46
  exact deg_of_ones_scatter scatter_S200000_S1000000x1_S1000000_n_0_0_1 rfl rfl rfl rfl (val_main_v44 (F := Ideal))
    (fun i => by rw [val_main_v44_apply, val_main_cst_8_apply]; exact Ideal.ofBits_zero_f32)
    (val_main_v43 (F := Ideal)) (fun j => by rw [val_main_v43_apply, val_main_cst_7_apply]; exact Ideal.ofBits_one_f32)
    (val_main_v45 (F := Ideal) x3) _ (dst_writes1 x3) r

theorem mean_writes1 (r : Fin 200000) (k : Fin 64) :
    val_main_v51 (F := Ideal) x1 x3 (ix2 r k)
      = Ideal.div (Cert.Spec.segsum (fun m q => x1 (ix2 m q)) (fun e => Cert.Spec.srcRow 100000 (by decide) (x3 (ix2 (0 : Fin 2) e)))
          (fun e => x3 (ix2 (1 : Fin 2) e)) r k) (max (Cert.Spec.deg 200000 (fun e => x3 (ix2 (1 : Fin 2) e)) r) 1) := by
  rw [val_main_v51_apply, val_main_v50_apply, val_main_v49_apply, val_main_v48_apply, val_main_v47_apply, val_main_cst_9_apply,
    show idx_main_v49 (idx_main_v50 (ix2 r k)) = ix1 r from eq_ix1 _]
  unfold val_main_v42 val_main_v39
  rw [segsum_of_gather_scatter (by decide) gather_S100000x64_S1000000x1_S1000000x64_1_0_n_n_0_1_164 rfl rfl rfl rfl rfl rfl
      scatter_S200000x64_S1000000x1_S1000000x64_1_0_0_1 rfl rfl rfl rfl (val_main_v40 (F := Ideal))
      (fun i => by rw [val_main_v40_apply, val_main_cst_6_apply]; exact Ideal.ofBits_zero_f32) x1
      (val_main_v38 (F := Ideal) x3) (val_main_v41 (F := Ideal) x3) _ _
      (src_writes1 x3) (dst_writes1 x3) r k,
    deg_writes1, Ideal.ofBits_def, Ideal.ofBits_one_f32]
  rfl

theorem sage_writes1 (r : Fin 200000) (h : Fin 32) :
    val_main_v57 (F := Ideal) x0 x1 x3 x8 x9 x10 (ix2 r h)
      = Cert.Spec.sageR (fun m k => x1 (ix2 m k)) (fun m k => x0 (ix2 m k))
          (fun e => Cert.Spec.srcRow 100000 (by decide) (x3 (ix2 (0 : Fin 2) e))) (fun e => x3 (ix2 (1 : Fin 2) e))
          (fun k j => x8 (ix2 k j)) (fun j => x9 (ix1 j)) (fun k j => x10 (ix2 k j)) r h := by
  rw [val_main_v57_apply, val_main_v55_apply, val_main_v52_apply, val_main_v54_apply, val_main_v53_apply, val_main_v56_apply,
    show idx_main_v53 (idx_main_v54 (ix2 r h)) = ix1 h from eq_ix1 _]
  simp only [show ∀ k, lidx_main_v52 (ix2 r h) k = ix2 r k from fun _ => eq_ix2 _,
    show ∀ k, ridx_main_v52 (ix2 r h) k = ix2 k h from fun _ => eq_ix2 _,
    show ∀ k, lidx_main_v56 (ix2 r h) k = ix2 r k from fun _ => eq_ix2 _,
    show ∀ k, ridx_main_v56 (ix2 r h) k = ix2 k h from fun _ => eq_ix2 _, mean_writes1]
  rfl

/-- Layer 1 at the papers: the cites and writes layers added, then the rectifier. -/
theorem p1_value (r : Fin 200000) (h : Fin 32) :
    val_main_v59 (F := Ideal) x0 x1 x2 x3 x5 x6 x7 x8 x9 x10 (ix2 r h)
      = (Cert.Spec.ofArgs x0 x1 x2 x3 x4 x5 x6 x7 x8 x9 x10 x11 x12 x13 x14 x15 x16 x17 x18 x19 x23 x24).p1R r h := by
  rw [val_main_v59_apply, val_main_v58_apply, val_main_call0_v0_apply, val_main_call0_cst_apply, sage_cites1, sage_writes1,
    Ideal.ofBits_def, Ideal.ofBits_zero_f32]
  rfl

theorem src_rev1 (e : Fin 1000000) :
    val_main_v69 (F := Ideal) x4 (ix2 e (0 : Fin 1)) = Cert.Spec.wrap (BitVec.ofNat 32 200000) (x4 (ix2 (0 : Fin 2) e)) := by
  rw [val_main_v69_apply, val_main_v68_apply, val_main_v65_apply, val_main_v67_apply, val_main_v61_apply, val_main_v60_apply,
    val_main_v64_apply, val_main_c_10_apply, val_main_v66_apply, val_main_c_11_apply,
    show idx_main_v60 (idx_main_v61 (idx_main_v69 (ix2 e (0 : Fin 1)))) = ix2 (0 : Fin 2) e from
      (eq_ix2 _).trans (congrArg (ix2 _) (Fin.ext (Nat.mod_eq_of_lt e.isLt)))]
  rfl

theorem dst_rev1 (e : Fin 1000000) : val_main_v72 (F := Ideal) x4 (ix2 e (0 : Fin 1)) = x4 (ix2 (1 : Fin 2) e) := by
  rw [val_main_v72_apply, val_main_v63_apply, val_main_v62_apply]
  exact congrArg x4 ((eq_ix2 _).trans (congrArg (ix2 _) (Fin.ext (Nat.mod_eq_of_lt e.isLt))))

theorem deg_rev1 (r : Fin 100000) :
    val_main_v77 (F := Ideal) x4 (ix1 r) = Cert.Spec.deg 100000 (fun e => x4 (ix2 (1 : Fin 2) e)) r := by
  unfold val_main_v77
  exact deg_of_ones_scatter scatter_S100000_S1000000x1_S1000000_n_0_0_1 rfl rfl rfl rfl (val_main_v75 (F := Ideal))
    (fun i => by rw [val_main_v75_apply, val_main_cst_14_apply]; exact Ideal.ofBits_zero_f32)
    (val_main_v74 (F := Ideal)) (fun j => by rw [val_main_v74_apply, val_main_cst_13_apply]; exact Ideal.ofBits_one_f32)
    (val_main_v76 (F := Ideal) x4) _ (dst_rev1 x4) r

theorem mean_rev1 (r : Fin 100000) (k : Fin 128) :
    val_main_v82 (F := Ideal) x0 x4 (ix2 r k)
      = Ideal.div (Cert.Spec.segsum (fun m q => x0 (ix2 m q)) (fun e => Cert.Spec.srcRow 200000 (by decide) (x4 (ix2 (0 : Fin 2) e)))
          (fun e => x4 (ix2 (1 : Fin 2) e)) r k) (max (Cert.Spec.deg 100000 (fun e => x4 (ix2 (1 : Fin 2) e)) r) 1) := by
  rw [val_main_v82_apply, val_main_v81_apply, val_main_v80_apply, val_main_v79_apply, val_main_v78_apply, val_main_cst_15_apply,
    show idx_main_v80 (idx_main_v81 (ix2 r k)) = ix1 r from eq_ix1 _]
  unfold val_main_v73 val_main_v70
  rw [segsum_of_gather_scatter (by decide) gather_S200000x128_S1000000x1_S1000000x128_1_0_n_n_0_1_1128 rfl rfl rfl rfl rfl rfl
      scatter_S100000x128_S1000000x1_S1000000x128_1_0_0_1 rfl rfl rfl rfl (val_main_v71 (F := Ideal))
      (fun i => by rw [val_main_v71_apply, val_main_cst_12_apply]; exact Ideal.ofBits_zero_f32) x0
      (val_main_v69 (F := Ideal) x4) (val_main_v72 (F := Ideal) x4) _ _
      (src_rev1 x4) (dst_rev1 x4) r k,
    deg_rev1, Ideal.ofBits_def, Ideal.ofBits_one_f32]
  rfl

theorem sage_rev1 (r : Fin 100000) (h : Fin 32) :
    val_main_v88 (F := Ideal) x0 x1 x4 x11 x12 x13 (ix2 r h)
      = Cert.Spec.sageR (fun m k => x0 (ix2 m k)) (fun m k => x1 (ix2 m k))
          (fun e => Cert.Spec.srcRow 200000 (by decide) (x4 (ix2 (0 : Fin 2) e))) (fun e => x4 (ix2 (1 : Fin 2) e))
          (fun k j => x11 (ix2 k j)) (fun j => x12 (ix1 j)) (fun k j => x13 (ix2 k j)) r h := by
  rw [val_main_v88_apply, val_main_v86_apply, val_main_v83_apply, val_main_v85_apply, val_main_v84_apply, val_main_v87_apply,
    show idx_main_v84 (idx_main_v85 (ix2 r h)) = ix1 h from eq_ix1 _]
  simp only [show ∀ k, lidx_main_v83 (ix2 r h) k = ix2 r k from fun _ => eq_ix2 _,
    show ∀ k, ridx_main_v83 (ix2 r h) k = ix2 k h from fun _ => eq_ix2 _,
    show ∀ k, lidx_main_v87 (ix2 r h) k = ix2 r k from fun _ => eq_ix2 _,
    show ∀ k, ridx_main_v87 (ix2 r h) k = ix2 k h from fun _ => eq_ix2 _, mean_rev1]
  rfl

/-- Layer 1 at the authors: the rev layer, then the rectifier. -/
theorem a1_value (r : Fin 100000) (h : Fin 32) :
    val_main_v89 (F := Ideal) x0 x1 x4 x11 x12 x13 (ix2 r h)
      = (Cert.Spec.ofArgs x0 x1 x2 x3 x4 x5 x6 x7 x8 x9 x10 x11 x12 x13 x14 x15 x16 x17 x18 x19 x23 x24).a1R r h := by
  rw [val_main_v89_apply, val_main_call1_v0_apply, val_main_call1_cst_apply, sage_rev1, Ideal.ofBits_def, Ideal.ofBits_zero_f32]
  rfl

end Cert.ReferenceIdeal.RefValue

end
-- ==== Proof.Ref.Layer2.lean ====
import proofs.«417774_j30605936951692_3_alg».proof.Proof.Gen.ReferenceIdeal.Read
import proofs.«417774_j30605936951692_3_alg».proof.Proof.Spec
import proofs.«417774_j30605936951692_3_alg».proof.Proof.LibRows
import proofs.«417774_j30605936951692_3_alg».proof.Proof.Ref.Layer1
import Idealize.ShloMosaic.PureOps.Ideal
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Read Idealize.ShloMosaic Idealize.ShloMosaic.ValueIdx

variable (x0 : (⟨S200000x128, .f32⟩ : BufTy).Contents (Elt Ideal)) (x1 : (⟨S100000x64, .f32⟩ : BufTy).Contents (Elt Ideal))
  (x2 x3 x4 : (⟨S2x1000000, .i32⟩ : BufTy).Contents (Elt Ideal))
  (x5 : (⟨S128x32, .f32⟩ : BufTy).Contents (Elt Ideal)) (x6 : (⟨S32, .f32⟩ : BufTy).Contents (Elt Ideal))
  (x7 : (⟨S128x32, .f32⟩ : BufTy).Contents (Elt Ideal)) (x8 : (⟨S64x32, .f32⟩ : BufTy).Contents (Elt Ideal))
  (x9 : (⟨S32, .f32⟩ : BufTy).Contents (Elt Ideal)) (x10 x11 : (⟨S128x32, .f32⟩ : BufTy).Contents (Elt Ideal))
  (x12 : (⟨S32, .f32⟩ : BufTy).Contents (Elt Ideal)) (x13 : (⟨S64x32, .f32⟩ : BufTy).Contents (Elt Ideal))
  (x14 : (⟨S32x32, .f32⟩ : BufTy).Contents (Elt Ideal)) (x15 : (⟨S32, .f32⟩ : BufTy).Contents (Elt Ideal))
  (x16 x17 : (⟨S32x32, .f32⟩ : BufTy).Contents (Elt Ideal)) (x18 : (⟨S32, .f32⟩ : BufTy).Contents (Elt Ideal))
  (x19 : (⟨S32x32, .f32⟩ : BufTy).Contents (Elt Ideal)) (x23 : (⟨S32x1, .f32⟩ : BufTy).Contents (Elt Ideal))
  (x24 : (⟨S1, .f32⟩ : BufTy).Contents (Elt Ideal))

/-- Layer 2 builds the columns and the in-degree again from the same edge list by the same operations, so layer 1's lemmas read them. -/
theorem mean_cites2 (r : Fin 200000) (k : Fin 32) :
    val_main_v112 (F := Ideal) x0 x1 x2 x3 x5 x6 x7 x8 x9 x10 (ix2 r k)
      = Ideal.div (Cert.Spec.segsum (fun m q => val_main_v59 (F := Ideal) x0 x1 x2 x3 x5 x6 x7 x8 x9 x10 (ix2 m q))
          (fun e => Cert.Spec.srcRow 200000 (by decide) (x2 (ix2 (0 : Fin 2) e))) (fun e => x2 (ix2 (1 : Fin 2) e)) r k)
          (max (Cert.Spec.deg 200000 (fun e => x2 (ix2 (1 : Fin 2) e)) r) 1) := by
  rw [val_main_v112_apply, val_main_v111_apply, val_main_v110_apply, val_main_v109_apply, val_main_v108_apply, val_main_cst_21_apply,
    show idx_main_v110 (idx_main_v111 (ix2 r k)) = ix1 r from eq_ix1 _]
  unfold val_main_v103 val_main_v100
  rw [segsum_of_gather_scatter (by decide) gather_S200000x32_S1000000x1_S1000000x32_1_0_n_n_0_1_132 rfl rfl rfl rfl rfl rfl
      scatter_S200000x32_S1000000x1_S1000000x32_1_0_0_1 rfl rfl rfl rfl (val_main_v101 (F := Ideal))
      (fun i => by rw [val_main_v101_apply, val_main_cst_18_apply]; exact Ideal.ofBits_zero_f32)
      (val_main_v59 (F := Ideal) x0 x1 x2 x3 x5 x6 x7 x8 x9 x10)
      (val_main_v99 (F := Ideal) x2) (val_main_v102 (F := Ideal) x2) _ _ (src_cites1 x2) (dst_cites1 x2) r k,
    show val_main_v107 (F := Ideal) x2 (ix1 r) = _ from deg_cites1 x2 r, Ideal.ofBits_def, Ideal.ofBits_one_f32]
  rfl

theorem sage_cites2 (r : Fin 200000) (h : Fin 32) :
    val_main_v118 (F := Ideal) x0 x1 x2 x3 x5 x6 x7 x8 x9 x10 x14 x15 x16 (ix2 r h)
      = Cert.Spec.sageR (fun m q => val_main_v59 (F := Ideal) x0 x1 x2 x3 x5 x6 x7 x8 x9 x10 (ix2 m q))
          (fun m q => val_main_v59 (F := Ideal) x0 x1 x2 x3 x5 x6 x7 x8 x9 x10 (ix2 m q))
          (fun e => Cert.Spec.srcRow 200000 (by decide) (x2 (ix2 (0 : Fin 2) e))) (fun e => x2 (ix2 (1 : Fin 2) e))
          (fun k j => x14 (ix2 k j)) (fun j => x15 (ix1 j)) (fun k j => x16 (ix2 k j)) r h := by
  rw [val_main_v118_apply, val_main_v116_apply, val_main_v113_apply, val_main_v115_apply, val_main_v114_apply, val_main_v117_apply,
    show idx_main_v114 (idx_main_v115 (ix2 r h)) = ix1 h from eq_ix1 _]
  simp only [show ∀ k, lidx_main_v113 (ix2 r h) k = ix2 r k from fun _ => eq_ix2 _,
    show ∀ k, ridx_main_v113 (ix2 r h) k = ix2 k h from fun _ => eq_ix2 _,
    show ∀ k, lidx_main_v117 (ix2 r h) k = ix2 r k from fun _ => eq_ix2 _,
    show ∀ k, ridx_main_v117 (ix2 r h) k = ix2 k h from fun _ => eq_ix2 _, mean_cites2]
  rfl

theorem mean_writes2 (r : Fin 200000) (k : Fin 32) :
    val_main_v141 (F := Ideal) x0 x1 x3 x4 x11 x12 x13 (ix2 r k)
      = Ideal.div (Cert.Spec.segsum (fun m q => val_main_v89 (F := Ideal) x0 x1 x4 x11 x12 x13 (ix2 m q))
          (fun e => Cert.Spec.srcRow 100000 (by decide) (x3 (ix2 (0 : Fin 2) e))) (fun e => x3 (ix2 (1 : Fin 2) e)) r k)
          (max (Cert.Spec.deg 200000 (fun e => x3 (ix2 (1 : Fin 2) e)) r) 1) := by
  rw [val_main_v141_apply, val_main_v140_apply, val_main_v139_apply, val_main_v138_apply, val_main_v137_apply, val_main_cst_27_apply,
    show idx_main_v139 (idx_main_v140 (ix2 r k)) = ix1 r from eq_ix1 _]
  unfold val_main_v132 val_main_v129
  rw [segsum_of_gather_scatter (by decide) gather_S100000x32_S1000000x1_S1000000x32_1_0_n_n_0_1_132 rfl rfl rfl rfl rfl rfl
      scatter_S200000x32_S1000000x1_S1000000x32_1_0_0_1 rfl rfl rfl rfl (val_main_v130 (F := Ideal))
      (fun i => by rw [val_main_v130_apply, val_main_cst_24_apply]; exact Ideal.ofBits_zero_f32)
      (val_main_v89 (F := Ideal) x0 x1 x4 x11 x12 x13)
      (val_main_v128 (F := Ideal) x3) (val_main_v131 (F := Ideal) x3) _ _ (src_writes1 x3) (dst_writes1 x3) r k,
    show val_main_v136 (F := Ideal) x3 (ix1 r) = _ from deg_writes1 x3 r, Ideal.ofBits_def, Ideal.ofBits_one_f32]
  rfl

theorem sage_writes2 (r : Fin 200000) (h : Fin 32) :
    val_main_v147 (F := Ideal) x0 x1 x2 x3 x4 x5 x6 x7 x8 x9 x10 x11 x12 x13 x17 x18 x19 (ix2 r h)
      = Cert.Spec.sageR (fun m q => val_main_v89 (F := Ideal) x0 x1 x4 x11 x12 x13 (ix2 m q))
          (fun m q => val_main_v59 (F := Ideal) x0 x1 x2 x3 x5 x6 x7 x8 x9 x10 (ix2 m q))
          (fun e => Cert.Spec.srcRow 100000 (by decide) (x3 (ix2 (0 : Fin 2) e))) (fun e => x3 (ix2 (1 : Fin 2) e))
          (fun k j => x17 (ix2 k j)) (fun j => x18 (ix1 j)) (fun k j => x19 (ix2 k j)) r h := by
  rw [val_main_v147_apply, val_main_v145_apply, val_main_v142_apply, val_main_v144_apply, val_main_v143_apply, val_main_v146_apply,
    show idx_main_v143 (idx_main_v144 (ix2 r h)) = ix1 h from eq_ix1 _]
  simp only [show ∀ k, lidx_main_v142 (ix2 r h) k = ix2 r k from fun _ => eq_ix2 _,
    show ∀ k, ridx_main_v142 (ix2 r h) k = ix2 k h from fun _ => eq_ix2 _,
    show ∀ k, lidx_main_v146 (ix2 r h) k = ix2 r k from fun _ => eq_ix2 _,
    show ∀ k, ridx_main_v146 (ix2 r h) k = ix2 k h from fun _ => eq_ix2 _, mean_writes2]
  rfl

/-- Layer 2 at the papers: the two layers added over the layer-1 tables, which are the specification's. -/
theorem p2_value (r : Fin 200000) (h : Fin 32) :
    val_main_v148 (F := Ideal) x0 x1 x2 x3 x4 x5 x6 x7 x8 x9 x10 x11 x12 x13 x14 x15 x16 x17 x18 x19 (ix2 r h)
      = (Cert.Spec.ofArgs x0 x1 x2 x3 x4 x5 x6 x7 x8 x9 x10 x11 x12 x13 x14 x15 x16 x17 x18 x19 x23 x24).p2R r h := by
  rw [val_main_v148_apply, sage_cites2, sage_writes2]
  simp only [p1_value x0 x1 x2 x3 x4 x5 x6 x7 x8 x9 x10 x11 x12 x13 x14 x15 x16 x17 x18 x19 x23 x24,
    a1_value x0 x1 x2 x3 x4 x5 x6 x7 x8 x9 x10 x11 x12 x13 x14 x15 x16 x17 x18 x19 x23 x24]
  rfl

/-- The head: one logit per paper, a layer-2 row times the head's weight column plus its one bias entry. -/
theorem ref_value (r : Fin 200000) (j : Fin 1) :
    val_main_v152 (F := Ideal) x0 x1 x2 x3 x4 x5 x6 x7 x8 x9 x10 x11 x12 x13 x14 x15 x16 x17 x18 x19 x23 x24 (ix2 r j)
      = (Cert.Spec.ofArgs x0 x1 x2 x3 x4 x5 x6 x7 x8 x9 x10 x11 x12 x13 x14 x15 x16 x17 x18 x19 x23 x24).outR r j := by
  rw [val_main_v152_apply, val_main_v149_apply, val_main_v151_apply, val_main_v150_apply,
    show idx_main_v150 (idx_main_v151 (ix2 r j)) = ix1 j from (eq_ix1 _).trans (congrArg ix1 (Subsingleton.elim _ j))]
  simp only [show ∀ k, lidx_main_v149 (ix2 r j) k = ix2 r k from fun _ => eq_ix2 _,
    show ∀ k, ridx_main_v149 (ix2 r j) k = ix2 k j from fun _ => eq_ix2 _,
    p2_value x0 x1 x2 x3 x4 x5 x6 x7 x8 x9 x10 x11 x12 x13 x14 x15 x16 x17 x18 x19 x23 x24]
  rfl

section
open Idealize.ShloMosaic.TcCoe Idealize.SL.Sem

theorem ref_result (m : (ℓ : Loc nD τ sig) → Buf (Elt Ideal) ℓ) (c : Dev nD) :
    (Cert.ReferenceIdeal.Value.res_main_v152 (F := Ideal) m c : S200000x1.Idx → EReal) =
      fun i => (Cert.Spec.ofArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg23)) (m ((c.tc : Thread nD τ).loc main_arg24))).outR (i 0) (i 1) := by
  funext i
  rw [val_main_v152_eq]
  obtain ⟨r, j, rfl⟩ : ∃ (r : Fin 200000) (j : Fin 1), i = ix2 r j := ⟨i 0, i 1, eq_ix2 i⟩
  exact ref_value _ _ _ _ _ _ _ _ _ _ _ _ _ _ _ _ _ _ _ _ _ _ r j

end

end Cert.ReferenceIdeal.RefValue

end
-- ==== Proof.Bridge.lean ====
import proofs.«417774_j30605936951692_3_alg».proof.Proof.PreFacts
import proofs.«417774_j30605936951692_3_alg».proof.Proof.Spec

noncomputable section

namespace Cert.Bridge

open Idealize.ShloMosaic Idealize.ShloMosaic.ValueIdx
open Cert.Pre_finite_inputs

theorem real_of_dom (a0 : FVec Ideal S200000x128 .f32) (a1 : FVec Ideal S100000x64 .f32) (a2 a3 a4 : IVec S2x1000000 32)
    (a5 : FVec Ideal S128x32 .f32) (a6 : FVec Ideal S32 .f32) (a7 : FVec Ideal S128x32 .f32) (a8 : FVec Ideal S64x32 .f32)
    (a9 : FVec Ideal S32 .f32) (a10 a11 : FVec Ideal S128x32 .f32) (a12 : FVec Ideal S32 .f32) (a13 : FVec Ideal S64x32 .f32)
    (a14 : FVec Ideal S32x32 .f32) (a15 : FVec Ideal S32 .f32) (a16 a17 : FVec Ideal S32x32 .f32) (a18 : FVec Ideal S32 .f32)
    (a19 a20 : FVec Ideal S32x32 .f32) (a21 : FVec Ideal S32 .f32) (a22 : FVec Ideal S32x32 .f32) (a23 : FVec Ideal S32x1 .f32)
    (a24 : FVec Ideal S1 .f32)
    (d : Cert.PreFacts.Dom a0 a1 a2 a3 a4 a5 a6 a7 a8 a9 a10 a11 a12 a13 a14 a15 a16 a17 a18 a19 a20 a21 a22 a23 a24) :
    (Cert.Spec.ofArgs a0 a1 a2 a3 a4 a5 a6 a7 a8 a9 a10 a11 a12 a13 a14 a15 a16 a17 a18 a19 a23 a24).Real :=
  { xp := fun r k => d.r0 (ix2 r k)
    xa := fun r k => d.r1 (ix2 r k)
    W1lc := fun r k => d.r5 (ix2 r k)
    b1c := fun h => d.r6 (ix1 h)
    W1rc := fun r k => d.r7 (ix2 r k)
    W1lw := fun r k => d.r8 (ix2 r k)
    b1w := fun h => d.r9 (ix1 h)
    W1rw := fun r k => d.r10 (ix2 r k)
    W1lr := fun r k => d.r11 (ix2 r k)
    b1r := fun h => d.r12 (ix1 h)
    W1rr := fun r k => d.r13 (ix2 r k)
    W2lc := fun r k => d.r14 (ix2 r k)
    b2c := fun h => d.r15 (ix1 h)
    W2rc := fun r k => d.r16 (ix2 r k)
    W2lw := fun r k => d.r17 (ix2 r k)
    b2w := fun h => d.r18 (ix1 h)
    W2rw := fun r k => d.r19 (ix2 r k)
    Wh := fun r k => d.r23 (ix2 r k)
    bh := fun h => d.r24 (ix1 h) }

end Cert.Bridge

end
-- ==== Proof.Algebra.lean ====
import proofs.«417774_j30605936951692_3_alg».proof.Proof.Spec
import Idealize.ShloMosaic.PureOps.Ideal
import Mathlib.Tactic.Ring
import Mathlib.Data.EReal.Operations
import Mathlib.Algebra.BigOperators.Group.Finset.Basic

noncomputable section

namespace Cert.Algebra

open Cert.Spec Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with hab | hab
  · rw [max_eq_right hab, max_eq_right (EReal.coe_le_coe_iff.2 hab)]
  · rw [max_eq_left hab, max_eq_left (EReal.coe_le_coe_iff.2 hab)]

theorem real_add {x y : EReal} (hx : ∃ v : ℝ, x = (v : EReal)) (hy : ∃ v : ℝ, y = (v : EReal)) :
    ∃ v : ℝ, x + y = (v : EReal) := by
  obtain ⟨a, rfl⟩ := hx; obtain ⟨b, rfl⟩ := hy; exact ⟨a + b, (EReal.coe_add a b).symm⟩

theorem real_mul {x y : EReal} (hx : ∃ v : ℝ, x = (v : EReal)) (hy : ∃ v : ℝ, y = (v : EReal)) :
    ∃ v : ℝ, x * y = (v : EReal) := by
  obtain ⟨a, rfl⟩ := hx; obtain ⟨b, rfl⟩ := hy; exact ⟨a * b, (EReal.coe_mul a b).symm⟩

theorem real_max {x y : EReal} (hx : ∃ v : ℝ, x = (v : EReal)) (hy : ∃ v : ℝ, y = (v : EReal)) :
    ∃ v : ℝ, max x y = (v : EReal) := by
  obtain ⟨a, rfl⟩ := hx; obtain ⟨b, rfl⟩ := hy; exact ⟨max a b, (coe_max a b).symm⟩

theorem real_sum {ι : Type} (s : Finset ι) (f : ι → EReal) (hf : ∀ i, ∃ v : ℝ, f i = (v : EReal)) :
    ∃ v : ℝ, ∑ i ∈ s, f i = (v : EReal) := by
  choose g hg using hf
  exact ⟨∑ i ∈ s, g i, by rw [coe_sum]; exact Finset.sum_congr rfl fun i _ => hg i⟩

theorem maxdeg_eq {E : Nat} (N : Nat) (dst : Fin E → BitVec 32) (r : Fin N) :
    max (deg N dst r) 1 = ((max ((lands N dst r).card : ℝ) 1 : ℝ) : EReal) := by
  unfold deg; rw [coe_max, EReal.coe_one]

theorem maxdeg_ne_zero {E : Nat} (N : Nat) (dst : Fin E → BitVec 32) (r : Fin N) :
    max ((lands N dst r).card : ℝ) 1 ≠ 0 :=
  ne_of_gt (lt_of_lt_of_le one_pos (le_max_right _ _))

theorem real_div_maxdeg {E : Nat} (N : Nat) (dst : Fin E → BitVec 32) (r : Fin N) {x : EReal}
    (hx : ∃ v : ℝ, x = (v : EReal)) : ∃ v : ℝ, Ideal.div x (max (deg N dst r) 1) = (v : EReal) := by
  rw [maxdeg_eq, Ideal.div_coe (maxdeg_ne_zero N dst r)]
  exact real_mul hx ⟨_, rfl⟩

theorem sageK_eq_sageR {E M N K Kd H : Nat} (xs : Fin M → Fin K → EReal) (xd : Fin N → Fin Kd → EReal)
    (src : Fin E → Fin M) (dst : Fin E → BitVec 32) (Wl : Fin K → Fin H → EReal) (bl : Fin H → EReal)
    (Wr : Fin Kd → Fin H → EReal) (hxs : ∀ m k, ∃ v : ℝ, xs m k = (v : EReal))
    (hWl : ∀ k h, ∃ v : ℝ, Wl k h = (v : EReal)) (r : Fin N) (h : Fin H) :
    Cert.Spec.sageK xs xd src dst Wl bl Wr r h = Cert.Spec.sageR xs xd src dst Wl bl Wr r h := by
  choose f hf using hxs
  choose g hg using hWl
  obtain rfl : xs = fun m k => (f m k : EReal) := funext fun m => funext fun k => hf m k
  obtain rfl : Wl = fun k h => (g k h : EReal) := funext fun k => funext fun h => hg k h
  unfold sageK sageR
  refine congrArg (· + mm xd Wr r h) (congrArg (· + bl h) ?_)
  have hD0 := maxdeg_ne_zero N dst r
  simp only [mm, segsum, maxdeg_eq, Ideal.div_coe hD0, one_mul, ← EReal.coe_mul, ← coe_sum]
  refine congrArg _ ?_
  rw [Finset.sum_comm, Finset.sum_mul]
  refine Finset.sum_congr rfl fun k _ => ?_
  rw [← Finset.sum_mul]
  ring

theorem sageR_real {E M N K Kd H : Nat} (xs : Fin M → Fin K → EReal) (xd : Fin N → Fin Kd → EReal)
    (src : Fin E → Fin M) (dst : Fin E → BitVec 32) (Wl : Fin K → Fin H → EReal) (bl : Fin H → EReal)
    (Wr : Fin Kd → Fin H → EReal) (hxs : ∀ m k, ∃ v : ℝ, xs m k = (v : EReal))
    (hxd : ∀ n k, ∃ v : ℝ, xd n k = (v : EReal)) (hWl : ∀ k h, ∃ v : ℝ, Wl k h = (v : EReal))
    (hbl : ∀ h, ∃ v : ℝ, bl h = (v : EReal)) (hWr : ∀ k h, ∃ v : ℝ, Wr k h = (v : EReal)) (r : Fin N) (h : Fin H) :
    ∃ v : ℝ, Cert.Spec.sageR xs xd src dst Wl bl Wr r h = (v : EReal) := by
  unfold sageR mm segsum
  refine real_add (real_add (real_sum _ _ fun k => real_mul (real_div_maxdeg N dst r (real_sum _ _ fun e => hxs _ _)) (hWl _ _)) (hbl h))
    (real_sum _ _ fun k => real_mul (hxd _ _) (hWr _ _))

theorem p1R_real (I : Cert.Spec.Inputs) (hI : I.Real) (r : Fin 200000) (h : Fin 32) : ∃ v : ℝ, I.p1R r h = (v : EReal) := by
  unfold Inputs.p1R
  exact real_max (real_add (sageR_real _ _ _ _ _ _ _ hI.xp hI.xp hI.W1lc hI.b1c hI.W1rc r h)
    (sageR_real _ _ _ _ _ _ _ hI.xa hI.xp hI.W1lw hI.b1w hI.W1rw r h)) ⟨0, EReal.coe_zero.symm⟩

theorem a1R_real (I : Cert.Spec.Inputs) (hI : I.Real) (r : Fin 100000) (h : Fin 32) : ∃ v : ℝ, I.a1R r h = (v : EReal) := by
  unfold Inputs.a1R
  exact real_max (sageR_real _ _ _ _ _ _ _ hI.xp hI.xa hI.W1lr hI.b1r hI.W1rr r h) ⟨0, EReal.coe_zero.symm⟩

theorem p1K_eq (I : Cert.Spec.Inputs) (hI : I.Real) : I.p1K = I.p1R := by
  funext r h
  unfold Inputs.p1K Inputs.p1R
  rw [sageK_eq_sageR _ _ _ _ _ _ _ hI.xp hI.W1lc, sageK_eq_sageR _ _ _ _ _ _ _ hI.xa hI.W1lw]

theorem a1K_eq (I : Cert.Spec.Inputs) (hI : I.Real) : I.a1K = I.a1R := by
  funext r h
  unfold Inputs.a1K Inputs.a1R
  rw [sageK_eq_sageR _ _ _ _ _ _ _ hI.xp hI.W1lr]

theorem p2K_eq (I : Cert.Spec.Inputs) (hI : I.Real) : I.p2K = I.p2R := by
  funext r h
  unfold Inputs.p2K Inputs.p2R
  rw [p1K_eq I hI, a1K_eq I hI, sageK_eq_sageR _ _ _ _ _ _ _ (p1R_real I hI) hI.W2lc,
    sageK_eq_sageR _ _ _ _ _ _ _ (a1R_real I hI) hI.W2lw]

theorem outK_eq_outR (I : Cert.Spec.Inputs) (hI : I.Real) : I.outK = I.outR := by
  funext r j
  unfold Inputs.outK Inputs.outR
  rw [p2K_eq I hI]

end Cert.Algebra

end
-- ==== Proof.lean ====
import proofs.«417774_j30605936951692_3_alg».proof.Defs
import proofs.«417774_j30605936951692_3_alg».proof.Proof.Gen.Kernel
import proofs.«417774_j30605936951692_3_alg».proof.Proof.Gen.KernelIdeal
import proofs.«417774_j30605936951692_3_alg».proof.Proof.Gen.ReferenceIdeal
import proofs.«417774_j30605936951692_3_alg».proof.Proof.Gen.ReferenceIdeal.Run
import proofs.«417774_j30605936951692_3_alg».proof.Proof.Gen.ReferenceIdeal.Read
import proofs.«417774_j30605936951692_3_alg».proof.Proof.Gen.Pre_finite_inputs
import proofs.«417774_j30605936951692_3_alg».proof.Proof.K.Claims
import proofs.«417774_j30605936951692_3_alg».proof.Proof.KI.Claims
import proofs.«417774_j30605936951692_3_alg».proof.Proof.KI.Chain
import proofs.«417774_j30605936951692_3_alg».proof.Proof.Ref.Layer2
import proofs.«417774_j30605936951692_3_alg».proof.Proof.PreFacts
import proofs.«417774_j30605936951692_3_alg».proof.Proof.Bridge
import proofs.«417774_j30605936951692_3_alg».proof.Proof.Algebra
import Idealize.ShloMosaic.Adequacy
import Idealize.ShloMosaic.Init

set_option maxRecDepth 16384

noncomputable section

namespace Cert.Proof

open Idealize.ShloMosaic Idealize.ShloMosaic.TcCoe Idealize.SL.Sem

/-- A frame is the run with the result dropped. -/
theorem frame_kernel : Cert.frame_Kernel := fun m g _ =>
  (θ_run Cert.Kernel.defs _ _).mono (fun _ h c => (h c).2) (Cert.Kernel.Frame.run_result (F := Bits) m g)

theorem frame_kernelIdeal : Cert.frame_KernelIdeal := fun m g _ =>
  (θ_run Cert.KernelIdeal.defs _ _).mono (fun _ h c => (h c).2) (Cert.KernelIdeal.Frame.run_result (F := Ideal) m g)

theorem frame_referenceIdeal : Cert.frame_ReferenceIdeal := fun m g _ =>
  (θ_run Cert.ReferenceIdeal.defs _ _).mono (fun _ h c => (h c).2) (Cert.ReferenceIdeal.Value.run (F := Ideal) m g)

theorem preserves : Cert.preserves_Kernel_KernelIdeal := trivial

/-- On real arguments a finite sum exchanges with a matrix product, and dividing by a nonzero degree is multiplying by its inverse. -/
theorem algebraic : Cert.algebraic_KernelIdeal_ReferenceIdeal := by
  intro m g m' g' hpre hagree
  refine ⟨fun c => Cert.KernelIdeal.Frame.W20 (F := Ideal) m g c (Proc.devRef .tc Cert.KernelIdeal.main_v96),
    Cert.KernelIdeal.Frame.run_result (F := Ideal) m g, ?_⟩
  refine (θ_run Cert.ReferenceIdeal.defs _ _).mono (fun _ h c => ⟨(h c).1.trans ?_, (h c).2⟩)
    (Cert.ReferenceIdeal.Value.run (F := Ideal) m' g')
  have hd := Cert.PreFacts.dom_of_pre _ _ _ _ _ _ _ _ _ _ _ _ _ _ _ _ _ _ _ _ _ _ _ _ _ (hpre c)
  obtain ⟨h0, h1, h2, h3, h4, h5, h6, h7, h8, h9, h10, h11, h12, h13, h14, h15, h16, h17, h18, h19, h20, h21, h22, h23, h24⟩ := hagree c
  rw [Cert.ReferenceIdeal.RefValue.ref_result m' c, h0, h1, h2, h3, h4, h5, h6, h7, h8, h9, h10, h11, h12, h13, h14, h15, h16, h17, h18, h19, h23, h24]
  funext i
  obtain ⟨r, j, rfl⟩ : ∃ (r : Fin 200000) (j : Fin 1), i = ValueIdx.ix2 r j := ⟨i 0, i 1, ValueIdx.eq_ix2 i⟩
  show (Cert.Spec.ofArgs _ _ _ _ _ _ _ _ _ _ _ _ _ _ _ _ _ _ _ _ _ _).outR r j = _
  rw [← Cert.Algebra.outK_eq_outR _ (Cert.Bridge.real_of_dom _ _ _ _ _ _ _ _ _ _ _ _ _ _ _ _ _ _ _ _ _ _ _ _ _ hd)]
  exact (Cert.KernelIdeal.Chain.kernel_value m g c hd r j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
